-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2x1024 : Shape := ⟨4, ![4, 2048, 2, 1024]⟩
abbrev S4x2048x2 : Shape := ⟨3, ![4, 2048, 2]⟩
abbrev S1024x8x1024 : Shape := ⟨3, ![1024, 8, 1024]⟩
abbrev S1024x8x1 : Shape := ⟨3, ![1024, 8, 1]⟩
abbrev S_ : Shape := ⟨0, ![]⟩

class Facts : Prop where
  bcast_S_S4x2048x2x1024 : S_.BroadcastsInDim S4x2048x2x1024 (![] : Fin 0 → Fin S4x2048x2x1024.rank)
  reducesTo_S4x2048x2x1024_S_d0_1_2_3 : S4x2048x2x1024.ReducesTo [0, 1, 2, 3] S_
  h_S_ : 0 < S_.numel
  bcast_S_S1024x8x1024 : S_.BroadcastsInDim S1024x8x1024 (![] : Fin 0 → Fin S1024x8x1024.rank)
  reducesTo_S1024x8x1024_S_d0_1_2 : S1024x8x1024.ReducesTo [0, 1, 2] S_
  bcast_S_S1024x8x1 : S_.BroadcastsInDim S1024x8x1 (![] : Fin 0 → Fin S1024x8x1.rank)
  reducesTo_S1024x8x1_S_d0_1_2 : S1024x8x1.ReducesTo [0, 1, 2] S_
  bcast_S_S4x2048x2 : S_.BroadcastsInDim S4x2048x2 (![] : Fin 0 → Fin S4x2048x2.rank)
  reducesTo_S4x2048x2_S_d0_1_2 : S4x2048x2.ReducesTo [0, 1, 2] S_

variable [Facts]

def fn_part1 {F : FTy → Type} [FloatOps F] (main_arg1 : IVec S4x2048x2 32) (main_v13 : IVec S_ 1) (main_v15 : IVec S4x2048x2 1) (main_c_5 : IVec S_ 1) : IVec S_ 1 :=
  let main_v16 : IVec S_ 1 := (fun x v => Host.reduce IntOp.andi x v reducesTo_S4x2048x2_S_d0_1_2 h_S_) main_v15 main_c_5
  let main_v17 : IVec S_ 1 := andi main_v13 main_v16
  let main_c_6 : IVec S_ 32 := constantI S_ 32 8#32
  let main_v18 : IVec S4x2048x2 32 := broadcastInDim S4x2048x2 ![] bcast_S_S4x2048x2 main_c_6
  let main_v19 : IVec S4x2048x2 1 := cmpi .slt main_arg1 main_v18
  let main_c_7 : IVec S_ 1 := constantI S_ 1 1#1
  let main_v20 : IVec S_ 1 := (fun x v => Host.reduce IntOp.andi x v reducesTo_S4x2048x2_S_d0_1_2 h_S_) main_v19 main_c_7
  let main_v21 : IVec S_ 1 := andi main_v17 main_v20
  main_v21

def fn {F : FTy → Type} [FloatOps F] (main_arg0 : FVec F S4x2048x2x1024 .f32) (main_arg1 : IVec S4x2048x2 32) (main_arg2 : FVec F S1024x8x1024 .f32) (main_arg3 : FVec F S1024x8x1 .f32) : IVec S_ 1 :=
  let main_v0 : FVec F S4x2048x2x1024 .f32 := Host.absf main_arg0
  let main_cst : FVec F S_ .f32 := constant S_ .f32 0x7F800000#32
  let main_v1 : FVec F S4x2048x2x1024 .f32 := broadcastInDim S4x2048x2x1024 ![] bcast_S_S4x2048x2x1024 main_cst
  let main_v2 : IVec S4x2048x2x1024 1 := cmpf .olt main_v0 main_v1
  let main_c : IVec S_ 1 := constantI S_ 1 1#1
  let main_v3 : IVec S_ 1 := (fun x v => Host.reduce IntOp.andi x v reducesTo_S4x2048x2x1024_S_d0_1_2_3 h_S_) main_v2 main_c
  let main_v4 : FVec F S1024x8x1024 .f32 := Host.absf main_arg2
  let main_cst_0 : FVec F S_ .f32 := constant S_ .f32 0x7F800000#32
  let main_v5 : FVec F S1024x8x1024 .f32 := broadcastInDim S1024x8x1024 ![] bcast_S_S1024x8x1024 main_cst_0
  let main_v6 : IVec S1024x8x1024 1 := cmpf .olt main_v4 main_v5
  let main_c_1 : IVec S_ 1 := constantI S_ 1 1#1
  let main_v7 : IVec S_ 1 := (fun x v => Host.reduce IntOp.andi x v reducesTo_S1024x8x1024_S_d0_1_2 h_S_) main_v6 main_c_1
  let main_v8 : IVec S_ 1 := andi main_v3 main_v7
  let main_v9 : FVec F S1024x8x1 .f32 := Host.absf main_arg3
  let main_cst_2 : FVec F S_ .f32 := constant S_ .f32 0x7F800000#32
  let main_v10 : FVec F S1024x8x1 .f32 := broadcastInDim S1024x8x1 ![] bcast_S_S1024x8x1 main_cst_2
  let main_v11 : IVec S1024x8x1 1 := cmpf .olt main_v9 main_v10
  let main_c_3 : IVec S_ 1 := constantI S_ 1 1#1
  let main_v12 : IVec S_ 1 := (fun x v => Host.reduce IntOp.andi x v reducesTo_S1024x8x1_S_d0_1_2 h_S_) main_v11 main_c_3
  let main_v13 : IVec S_ 1 := andi main_v8 main_v12
  let main_c_4 : IVec S_ 32 := constantI S_ 32 0#32
  let main_v14 : IVec S4x2048x2 32 := broadcastInDim S4x2048x2 ![] bcast_S_S4x2048x2 main_c_4
  let main_v15 : IVec S4x2048x2 1 := cmpi .sge main_arg1 main_v14
  let main_c_5 : IVec S_ 1 := constantI S_ 1 1#1
  fn_part1 (F := F) main_arg1 main_v13 main_v15 main_c_5
-- ==== Kernel.lean ====
abbrev S4x2048x2x1024 : Shape := ⟨4, ![4, 2048, 2, 1024]⟩
abbrev S4x2048x2 : Shape := ⟨3, ![4, 2048, 2]⟩
abbrev S1024x8x1024 : Shape := ⟨3, ![1024, 8, 1024]⟩
abbrev S1024x8x1 : Shape := ⟨3, ![1024, 8, 1]⟩
abbrev S16384x1024 : Shape := ⟨2, ![16384, 1024]⟩
abbrev S16384 : Shape := ⟨1, ![16384]⟩
abbrev S_ : Shape := ⟨0, ![]⟩
abbrev S16384x1 : Shape := ⟨2, ![16384, 1]⟩
abbrev S8 : Shape := ⟨1, ![8]⟩
abbrev S1x8 : Shape := ⟨2, ![1, 8]⟩
abbrev S16384x8 : Shape := ⟨2, ![16384, 8]⟩
abbrev S1 : Shape := ⟨1, ![1]⟩
abbrev S9 : Shape := ⟨1, ![9]⟩
abbrev S40 : Shape := ⟨1, ![40]⟩
abbrev S7 : Shape := ⟨1, ![7]⟩
abbrev S40x1 : Shape := ⟨2, ![40, 1]⟩
abbrev S1x7 : Shape := ⟨2, ![1, 7]⟩
abbrev S40x7 : Shape := ⟨2, ![40, 7]⟩
abbrev S20480x1024 : Shape := ⟨2, ![20480, 1024]⟩
abbrev S8x1024x1024 : Shape := ⟨3, ![8, 1024, 1024]⟩
abbrev S1024x8 : Shape := ⟨2, ![1024, 8]⟩
abbrev S8x1024 : Shape := ⟨2, ![8, 1024]⟩
abbrev S8x1x1024 : Shape := ⟨3, ![8, 1, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 157
  | .vmem => 8
  | .smem => 1
  | _ => 0

abbrev hbmTy0_0 (i : Nat) : BufTy := match i % 128 with
  | 0 => ⟨S4x2048x2x1024, .f32⟩
  | 1 => ⟨S4x2048x2, .i32⟩
  | 2 => ⟨S1024x8x1024, .f32⟩
  | 3 => ⟨S1024x8x1, .f32⟩
  | 4 => ⟨S16384x1024, .f32⟩
  | 5 => ⟨S16384, .i32⟩
  | 6 => ⟨S16384, .i32⟩
  | 7 => ⟨S16384, .i32⟩
  | 8 => ⟨S16384, .i32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S16384, .i32⟩
  | 18 => ⟨S16384x1, .i32⟩
  | 19 => ⟨S8, .i32⟩
  | 20 => ⟨S1x8, .i32⟩
  | 21 => ⟨S16384x8, .i32⟩
  | 22 => ⟨S16384x8, .i32⟩
  | 23 => ⟨S16384x8, .i1⟩
  | 24 => ⟨S16384x8, .i32⟩
  | 25 => ⟨S_, .i32⟩
  | 26 => ⟨S8, .i32⟩
  | 27 => ⟨S_, .i32⟩
  | 28 => ⟨S8, .i32⟩
  | 29 => ⟨S8, .i32⟩
  | 30 => ⟨S_, .i32⟩
  | 31 => ⟨S8, .i32⟩
  | 32 => ⟨S8, .i32⟩
  | 33 => ⟨S_, .i32⟩
  | 34 => ⟨S_, .i32⟩
  | 35 => ⟨S8, .i32⟩
  | 36 => ⟨S8, .i32⟩
  | 37 => ⟨S8, .i32⟩
  | 38 => ⟨S_, .i32⟩
  | 39 => ⟨S8, .i32⟩
  | 40 => ⟨S8, .i1⟩
  | 41 => ⟨S8, .i32⟩
  | 42 => ⟨S8, .i32⟩
  | 43 => ⟨S_, .i32⟩
  | 44 => ⟨S8, .i32⟩
  | 45 => ⟨S8, .i1⟩
  | 46 => ⟨S8, .i1⟩
  | 47 => ⟨S_, .i32⟩
  | 48 => ⟨S8, .i32⟩
  | 49 => ⟨S8, .i32⟩
  | 50 => ⟨S8, .i32⟩
  | 51 => ⟨S_, .i32⟩
  | 52 => ⟨S8, .i32⟩
  | 53 => ⟨S8, .i32⟩
  | 54 => ⟨S_, .i32⟩
  | 55 => ⟨S1, .i32⟩
  | 56 => ⟨S_, .i32⟩
  | 57 => ⟨S_, .i32⟩
  | 58 => ⟨S8, .i32⟩
  | 59 => ⟨S9, .i32⟩
  | 60 => ⟨S8, .i32⟩
  | 61 => ⟨S_, .i32⟩
  | 62 => ⟨S1, .i32⟩
  | 63 => ⟨S_, .i32⟩
  | 64 => ⟨S_, .i32⟩
  | 65 => ⟨S8, .i32⟩
  | 66 => ⟨S9, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S16384, .i32⟩
  | 76 => ⟨S8, .i32⟩
  | 77 => ⟨S_, .i32⟩
  | 78 => ⟨S16384, .i32⟩
  | 79 => ⟨S16384, .i1⟩
  | 80 => ⟨S_, .i32⟩
  | 81 => ⟨S16384, .i32⟩
  | 82 => ⟨S16384, .i32⟩
  | 83 => ⟨S16384, .i32⟩
  | 84 => ⟨S16384x1, .i32⟩
  | 85 => ⟨S16384, .i32⟩
  | 86 => ⟨S16384, .i32⟩
  | 87 => ⟨S16384, .i32⟩
  | 88 => ⟨S16384, .i32⟩
  | 89 => ⟨S40, .i32⟩
  | 90 => ⟨S_, .i32⟩
  | 91 => ⟨S40, .i32⟩
  | 92 => ⟨S40, .i32⟩
  | 93 => ⟨S7, .i32⟩
  | 94 => ⟨S40x1, .i32⟩
  | 95 => ⟨S1x7, .i32⟩
  | 96 => ⟨S40x7, .i32⟩
  | 97 => ⟨S40x7, .i32⟩
  | 98 => ⟨S40x7, .i1⟩
  | 99 => ⟨S40x7, .i32⟩
  | 100 => ⟨S_, .i32⟩
  | 101 => ⟨S40, .i32⟩
  | 102 => ⟨S_, .i32⟩
  | 103 => ⟨S_, .i32⟩
  | 104 => ⟨S_, .i32⟩
  | 105 => ⟨S40, .i32⟩
  | 106 => ⟨S40, .i32⟩
  | 107 => ⟨S_, .i32⟩
  | 108 => ⟨S40, .i32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S16384x1024, .f32⟩
  | 118 => ⟨S16384x1024, .bf16⟩
  | 119 => ⟨S_, .bf16⟩
  | 120 => ⟨S20480x1024, .bf16⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S4x2048x2x1024, .f32⟩

abbrev hbmTy0_1 (i : Nat) : BufTy := match i % 128 with
  | 0 => ⟨S16384x1, .i32⟩
  | 1 => ⟨S20480x1024, .bf16⟩
  | 2 => ⟨S8x1024x1024, .f32⟩
  | 3 => ⟨S8x1024x1024, .bf16⟩
  | 4 => ⟨S1024x8, .f32⟩
  | 5 => ⟨S8x1024, .f32⟩
  | 6 => ⟨S8x1x1024, .f32⟩
  | 7 => ⟨S20480x1024, .f32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S16384x1024, .f32⟩
  | 17 => ⟨S_, .f32⟩
  | 18 => ⟨S16384x1024, .f32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S16384x1024, .f32⟩
  | 28 => ⟨S4x2048x2x1024, .f32⟩
  | _ => ⟨S4x2048x2x1024, .f32⟩

abbrev hbmTy (i : Nat) : BufTy := match i / 128 with
  | 0 => hbmTy0_0 i
  | 1 => hbmTy0_1 i
  | _ => ⟨S4x2048x2x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .smem, ⟨0, _⟩ => ⟨S40, .i32⟩
  | _, _ => ⟨S4x2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_call2_call0_c : Ref sig .tc := ⟨.hbm, 56, rfl⟩
abbrev main_call2_call0_v0 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_7 : Ref sig .tc := ⟨.hbm, 61, rfl⟩
abbrev main_v29 : Ref sig .tc := ⟨.hbm, 62, rfl⟩
abbrev main_call3_call0_c : Ref sig .tc := ⟨.hbm, 63, rfl⟩
abbrev main_call3_call0_v0 : Ref sig .tc := ⟨.hbm, 64, rfl⟩
abbrev main_v30 : Ref sig .tc := ⟨.hbm, 65, rfl⟩
abbrev main_v31 : Ref sig .tc := ⟨.hbm, 66, rfl⟩
abbrev main_c_8 : Ref sig .tc := ⟨.hbm, 67, rfl⟩
abbrev main_v32 : Ref sig .tc := ⟨.hbm, 68, rfl⟩
abbrev main_v33 : Ref sig .tc := ⟨.hbm, 69, rfl⟩
abbrev main_c_9 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_10 : Ref sig .tc := ⟨.hbm, 77, rfl⟩
abbrev main_v40 : Ref sig .tc := ⟨.hbm, 78, rfl⟩
abbrev main_v41 : Ref sig .tc := ⟨.hbm, 79, rfl⟩
abbrev main_c_11 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_12 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_13 : Ref sig .tc := ⟨.hbm, 100, rfl⟩
abbrev main_v60 : Ref sig .tc := ⟨.hbm, 101, rfl⟩
abbrev main_c_14 : Ref sig .tc := ⟨.hbm, 102, rfl⟩
abbrev main_c_15 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_c_16 : Ref sig .tc := ⟨.hbm, 109, rfl⟩
abbrev main_v62 : Ref sig .tc := ⟨.hbm, 110, rfl⟩
abbrev main_v63 : Ref sig .tc := ⟨.hbm, 111, rfl⟩
abbrev main_c_17 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst : Ref sig .tc := ⟨.hbm, 119, rfl⟩
abbrev main_v70 : Ref sig .tc := ⟨.hbm, 120, rfl⟩
abbrev main_c_18 : Ref sig .tc := ⟨.hbm, 121, rfl⟩
abbrev main_v71 : Ref sig .tc := ⟨.hbm, 122, rfl⟩
abbrev main_v72 : Ref sig .tc := ⟨.hbm, 123, rfl⟩
abbrev main_c_19 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_20 : Ref sig .tc := ⟨.hbm, 136, rfl⟩
abbrev main_v84 : Ref sig .tc := ⟨.hbm, 137, rfl⟩
abbrev main_v85 : Ref sig .tc := ⟨.hbm, 138, rfl⟩
abbrev main_c_21 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_22 : Ref sig .tc := ⟨.hbm, 145, rfl⟩
abbrev main_v91 : Ref sig .tc := ⟨.hbm, 146, rfl⟩
abbrev main_c_23 : Ref sig .tc := ⟨.hbm, 147, rfl⟩
abbrev main_v92 : Ref sig .tc := ⟨.hbm, 148, rfl⟩
abbrev main_v93 : Ref sig .tc := ⟨.hbm, 149, rfl⟩
abbrev main_c_24 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v61 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_v61.idx], fun | 0 => main_v61.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x2x1024_S16384x1024 : S4x2048x2x1024.ShapeCasts S16384x1024
  shapeCasts_S4x2048x2_S16384 : S4x2048x2.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S8_S1x8_1 : S8.BroadcastsInDim S1x8 (![1] : Fin 1 → Fin S1x8.rank)
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  natLt_1_32 : 1 < 32
  reducesTo_S16384x8_S8_d0 : S16384x8.ReducesTo [0] S8
  h_S_ : 0 < S_.numel
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  concatenates_S1_S8_S9_d0 : Shape.Concatenates [S1, S8] S9 0
  slices_S9_S8_0 : S9.Slices ![0] S8
  bcast_S_S40 : S_.BroadcastsInDim S40 (![] : Fin 0 → Fin S40.rank)
  slices_S9_S7_1 : S9.Slices ![1] S7
  bcast_S40_S40x1_0 : S40.BroadcastsInDim S40x1 (![0] : Fin 1 → Fin S40x1.rank)
  bcast_S7_S1x7_1 : S7.BroadcastsInDim S1x7 (![1] : Fin 1 → Fin S1x7.rank)
  bcast_S40x1_S40x7_0_1 : S40x1.BroadcastsInDim S40x7 (![0, 1] : Fin 2 → Fin S40x7.rank)
  bcast_S1x7_S40x7_0_1 : S1x7.BroadcastsInDim S40x7 (![0, 1] : Fin 2 → Fin S40x7.rank)
  reducesTo_S40x7_S40_d1 : S40x7.ReducesTo [1] S40
  bitsLt_bf16_f32 : FTy.bits .bf16 < FTy.bits .f32
  bcast_S_S20480x1024 : S_.BroadcastsInDim S20480x1024 (![] : Fin 0 → Fin S20480x1024.rank)
  transposes_S1024x8x1024_S8x1024x1024_1_2_0 : S1024x8x1024.Transposes [1, 2, 0] S8x1024x1024
  shapeCasts_S1024x8x1_S1024x8 : S1024x8x1.ShapeCasts S1024x8
  transposes_S1024x8_S8x1024_1_0 : S1024x8.Transposes [1, 0] S8x1024
  bcast_S8x1024_S8x1x1024_0_2 : S8x1024.BroadcastsInDim S8x1x1024 (![0, 2] : Fin 2 → Fin S8x1x1024.rank)
  numel1_S1 : S1.numel = 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  bcast_S_S16384x1024 : S_.BroadcastsInDim S16384x1024 (![] : Fin 0 → Fin S16384x1024.rank)
  shapeCasts_S16384x1024_S4x2048x2x1024 : S16384x1024.ShapeCasts S4x2048x2x1024
  gather_S16384_S16384x1_S16384_n_0_n_n_0_1_1_wf : GatherDims.WF S16384 S16384x1 S16384 [] [0] [] [0] [] 1 ![1]
  gather_S8_S16384x1_S16384_n_0_n_n_0_1_1_wf : GatherDims.WF S8 S16384x1 S16384 [] [0] [] [0] [] 1 ![1]
  gather_S16384x1024_S16384x1_S16384x1024_1_0_n_n_0_1_11024_wf : GatherDims.WF S16384x1024 S16384x1 S16384x1024 [1] [0] [] [0] [] 1 ![1, 1024]
  scatter_S20480x1024_S16384x1_S16384x1024_1_0_0_1_wf : ScatterDims.WF S20480x1024 S16384x1 S16384x1024 [1] [0] [0] 1
  dot_S512x1024_S1024x1024_S512x1024_1_0_0_1_n_n_wf : DotDims.WF S512x1024 S1024x1024 S512x1024 [1] [0] [0] [1] [] []
  gather_S20480x1024_S16384x1_S16384x1024_1_0_n_n_0_1_11024_wf : GatherDims.WF S20480x1024 S16384x1 S16384x1024 [1] [0] [] [0] [] 1 ![1, 1024]
  scatter_S16384x1024_S16384x1_S16384x1024_1_0_0_1_wf : ScatterDims.WF S16384x1024 S16384x1 S16384x1024 [1] [0] [0] 1
  hrank0 : 0 < grid0.rank
  k0_off1_inb : ∀ i : grid0.Coords, ∀ a, (k0_off1 i) a + S1.size a ≤ S40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S20480x1024.size a
  hwx0_0 : ∀ i : grid0.Coords, EltTy.bits .bf16 = 32 ∨ (Rect.block (s := S20480x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S20480x1024.size a
  hwx0_3 : ∀ i : grid0.Coords, EltTy.bits .f32 = 32 ∨ (Rect.block (s := S20480x1024) S512x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def gather_S16384x1024_S16384x1_S16384x1024_1_0_n_n_0_1_11024 : GatherDims S16384x1024 S16384x1 S16384x1024 where
  offsetDims := [1]
  collapsedSliceDims := [0]
  operandBatchingDims := []
  startIndicesBatchingDims := []
  startIndexMap := [0]
  indexVectorDim := 1
  sliceSizes := ![1, 1024]
  wf := gather_S16384x1024_S16384x1_S16384x1024_1_0_n_n_0_1_11024_wf
def scatter_S20480x1024_S16384x1_S16384x1024_1_0_0_1 : ScatterDims S20480x1024 S16384x1 S16384x1024 where
  updateWindowDims := [1]
  insertedWindowDims := [0]
  scatterDimsToOperandDims := [0]
  indexVectorDim := 1
  wf := scatter_S20480x1024_S16384x1_S16384x1024_1_0_0_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def gather_S20480x1024_S16384x1_S16384x1024_1_0_n_n_0_1_11024 : GatherDims S20480x1024 S16384x1 S16384x1024 where
  offsetDims := [1]
  collapsedSliceDims := [0]
  operandBatchingDims := []
  startIndicesBatchingDims := []
  startIndexMap := [0]
  indexVectorDim := 1
  sliceSizes := ![1, 1024]
  wf := gather_S20480x1024_S16384x1_S16384x1024_1_0_n_n_0_1_11024_wf
def scatter_S16384x1024_S16384x1_S16384x1024_1_0_0_1 : ScatterDims S16384x1024 S16384x1 S16384x1024 where
  updateWindowDims := [1]
  insertedWindowDims := [0]
  scatterDimsToOperandDims := [0]
  indexVectorDim := 1
  wf := scatter_S16384x1024_S16384x1_S16384x1024_1_0_0_1_wf

abbrev spec0_0 : Pipeline.WinSpec sig grid0.rank :=
  Pipeline.WinSpec.ofSpec (Memref.whole main_v77) S512x1024.size reads0_0 false false 2 stage0_0 sem0_0 nbuf0_0 hstage0_0

abbrev spec0_1 : Pipeline.WinSpec sig grid0.rank :=
  Pipeline.WinSpec.ofSpec (Memref.whole main_v79) S1x1024x1024.size reads0_1 false false 2 stage0_1 sem0_1 nbuf0_1 hstage0_1

abbrev spec0_2 : Pipeline.WinSpec sig grid0.rank :=
  Pipeline.WinSpec.ofSpec (Memref.whole main_v82) S1x1x1024.size reads0_2 false false 2 stage0_2 sem0_2 nbuf0_2 hstage0_2

abbrev spec0_3 : Pipeline.WinSpec sig grid0.rank :=
  Pipeline.WinSpec.ofSpec (Memref.whole main_v83) S512x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S8x1024x1024.size a), EltTy.bits .bf16 = 32 ∨ (Rect.block (s := S8x1024x1024) S1x1024x1024.size (cc0_transform_1 k0_off1_inb numel1_S1 pf i) h).WholeWords (EltTy.packing .bf16)) ∧
  (∀ i : grid0.Coords, ∃ h : (∀ a, (cc0_transform_2 k0_off1_inb numel1_S1 pf i a + 1) * S1x1x1024.size a ≤ S8x1x1024.size a), EltTy.bits .f32 = 32 ∨ (Rect.block (s := S8x1x1024) S1x1x1024.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S4x2048x2x1024 : Shape := ⟨4, ![4, 2048, 2, 1024]⟩
abbrev S4x2048x2 : Shape := ⟨3, ![4, 2048, 2]⟩
abbrev S1024x8x1024 : Shape := ⟨3, ![1024, 8, 1024]⟩
abbrev S1024x8x1 : Shape := ⟨3, ![1024, 8, 1]⟩
abbrev S16384x1024 : Shape := ⟨2, ![16384, 1024]⟩
abbrev S16384 : Shape := ⟨1, ![16384]⟩
abbrev S_ : Shape := ⟨0, ![]⟩
abbrev S1024x1x1024 : Shape := ⟨3, ![1024, 1, 1024]⟩
abbrev S1024x1024 : Shape := ⟨2, ![1024, 1024]⟩
abbrev S1024x1x1 : Shape := ⟨3, ![1024, 1, 1]⟩
abbrev S1024 : Shape := ⟨1, ![1024]⟩
abbrev S1x1024 : Shape := ⟨2, ![1, 1024]⟩
abbrev S16384x1 : Shape := ⟨2, ![16384, 1]⟩

abbrev nBuf : Space → Nat
  | .hbm => 129
  | .vmem => 0
  | .smem => 0
  | _ => 0

abbrev hbmTy0_0 (i : Nat) : BufTy := match i % 128 with
  | 0 => ⟨S4x2048x2x1024, .f32⟩
  | 1 => ⟨S4x2048x2, .i32⟩
  | 2 => ⟨S1024x8x1024, .f32⟩
  | 3 => ⟨S1024x8x1, .f32⟩
  | 4 => ⟨S16384x1024, .f32⟩
  | 5 => ⟨S16384, .i32⟩
  | 6 => ⟨S_, .f32⟩
  | 7 => ⟨S16384x1024, .f32⟩
  | 8 => ⟨S1024x1x1024, .f32⟩
  | 9 => ⟨S1024x1024, .f32⟩
  | 10 => ⟨S1024x1024, .f32⟩
  | 11 => ⟨S16384x1024, .f32⟩
  | 12 => ⟨S1024x1x1, .f32⟩
  | 13 => ⟨S1024, .f32⟩
  | 14 => ⟨S1x1024, .f32⟩
  | 15 => ⟨S16384x1024, .f32⟩
  | 16 => ⟨S16384x1024, .f32⟩
  | 17 => ⟨S_, .i32⟩
  | 18 => ⟨S16384, .i32⟩
  | 19 => ⟨S16384, .i1⟩
  | 20 => ⟨S16384x1, .i1⟩
  | 21 => ⟨S16384x1024, .i1⟩
  | 22 => ⟨S16384x1024, .f32⟩
  | 23 => ⟨S1024x1x1024, .f32⟩
  | 24 => ⟨S1024x1024, .f32⟩
  | 25 => ⟨S1024x1024, .f32⟩
  | 26 => ⟨S16384x1024, .f32⟩
  | 27 => ⟨S1024x1x1, .f32⟩
  | 28 => ⟨S1024, .f32⟩
  | 29 => ⟨S1x1024, .f32⟩
  | 30 => ⟨S16384x1024, .f32⟩
  | 31 => ⟨S16384x1024, .f32⟩
  | 32 => ⟨S_, .i32⟩
  | 33 => ⟨S16384, .i32⟩
  | 34 => ⟨S16384, .i1⟩
  | 35 => ⟨S16384x1, .i1⟩
  | 36 => ⟨S16384x1024, .i1⟩
  | 37 => ⟨S16384x1024, .f32⟩
  | 38 => ⟨S1024x1x1024, .f32⟩
  | 39 => ⟨S1024x1024, .f32⟩
  | 40 => ⟨S1024x1024, .f32⟩
  | 41 => ⟨S16384x1024, .f32⟩
  | 42 => ⟨S1024x1x1, .f32⟩
  | 43 => ⟨S1024, .f32⟩
  | 44 => ⟨S1x1024, .f32⟩
  | 45 => ⟨S16384x1024, .f32⟩
  | 46 => ⟨S16384x1024, .f32⟩
  | 47 => ⟨S_, .i32⟩
  | 48 => ⟨S16384, .i32⟩
  | 49 => ⟨S16384, .i1⟩
  | 50 => ⟨S16384x1, .i1⟩
  | 51 => ⟨S16384x1024, .i1⟩
  | 52 => ⟨S16384x1024, .f32⟩
  | 53 => ⟨S1024x1x1024, .f32⟩
  | 54 => ⟨S1024x1024, .f32⟩
  | 55 => ⟨S1024x1024, .f32⟩
  | 56 => ⟨S16384x1024, .f32⟩
  | 57 => ⟨S1024x1x1, .f32⟩
  | 58 => ⟨S1024, .f32⟩
  | 59 => ⟨S1x1024, .f32⟩
  | 60 => ⟨S16384x1024, .f32⟩
  | 61 => ⟨S16384x1024, .f32⟩
  | 62 => ⟨S_, .i32⟩
  | 63 => ⟨S16384, .i32⟩
  | 64 => ⟨S16384, .i1⟩
  | 65 => ⟨S16384x1, .i1⟩
  | 66 => ⟨S16384x1024, .i1⟩
  | 67 => ⟨S16384x1024, .f32⟩
  | 68 => ⟨S1024x1x1024, .f32⟩
  | 69 => ⟨S1024x1024, .f32⟩
  | 70 => ⟨S1024x1024, .f32⟩
  | 71 => ⟨S16384x1024, .f32⟩
  | 72 => ⟨S1024x1x1, .f32⟩
  | 73 => ⟨S1024, .f32⟩
  | 74 => ⟨S1x1024, .f32⟩
  | 75 => ⟨S16384x1024, .f32⟩
  | 76 => ⟨S16384x1024, .f32⟩
  | 77 => ⟨S_, .i32⟩
  | 78 => ⟨S16384, .i32⟩
  | 79 => ⟨S16384, .i1⟩
  | 80 => ⟨S16384x1, .i1⟩
  | 81 => ⟨S16384x1024, .i1⟩
  | 82 => ⟨S16384x1024, .f32⟩
  | 83 => ⟨S1024x1x1024, .f32⟩
  | 84 => ⟨S1024x1024, .f32⟩
  | 85 => ⟨S1024x1024, .f32⟩
  | 86 => ⟨S16384x1024, .f32⟩
  | 87 => ⟨S1024x1x1, .f32⟩
  | 88 => ⟨S1024, .f32⟩
  | 89 => ⟨S1x1024, .f32⟩
  | 90 => ⟨S16384x1024, .f32⟩
  | 91 => ⟨S16384x1024, .f32⟩
  | 92 => ⟨S_, .i32⟩
  | 93 => ⟨S16384, .i32⟩
  | 94 => ⟨S16384, .i1⟩
  | 95 => ⟨S16384x1, .i1⟩
  | 96 => ⟨S16384x1024, .i1⟩
  | 97 => ⟨S16384x1024, .f32⟩
  | 98 => ⟨S1024x1x1024, .f32⟩
  | 99 => ⟨S1024x1024, .f32⟩
  | 100 => ⟨S1024x1024, .f32⟩
  | 101 => ⟨S16384x1024, .f32⟩
  | 102 => ⟨S1024x1x1, .f32⟩
  | 103 => ⟨S1024, .f32⟩
  | 104 => ⟨S1x1024, .f32⟩
  | 105 => ⟨S16384x1024, .f32⟩
  | 106 => ⟨S16384x1024, .f32⟩
  | 107 => ⟨S_, .i32⟩
  | 108 => ⟨S16384, .i32⟩
  | 109 => ⟨S16384, .i1⟩
  | 110 => ⟨S16384x1, .i1⟩
  | 111 => ⟨S16384x1024, .i1⟩
  | 112 => ⟨S16384x1024, .f32⟩
  | 113 => ⟨S1024x1x1024, .f32⟩
  | 114 => ⟨S1024x1024, .f32⟩
  | 115 => ⟨S1024x1024, .f32⟩
  | 116 => ⟨S16384x1024, .f32⟩
  | 117 => ⟨S1024x1x1, .f32⟩
  | 118 => ⟨S1024, .f32⟩
  | 119 => ⟨S1x1024, .f32⟩
  | 120 => ⟨S16384x1024, .f32⟩
  | 121 => ⟨S16384x1024, .f32⟩
  | 122 => ⟨S_, .i32⟩
  | 123 => ⟨S16384, .i32⟩
  | 124 => ⟨S16384, .i1⟩
  | 125 => ⟨S16384x1, .i1⟩
  | 126 => ⟨S16384x1024, .i1⟩
  | 127 => ⟨S16384x1024, .f32⟩
  | _ => ⟨S4x2048x2x1024, .f32⟩

abbrev hbmTy0_1 (i : Nat) : BufTy := match i % 128 with
  | 0 => ⟨S4x2048x2x1024, .f32⟩
  | _ => ⟨S4x2048x2x1024, .f32⟩

abbrev hbmTy (i : Nat) : BufTy := match i / 128 with
  | 0 => hbmTy0_0 i
  | 1 => hbmTy0_1 i
  | _ => ⟨S4x2048x2x1024, .f32⟩

abbrev bufTy : (tb : Table) → Fin (tcTables nBuf tb) → BufTy
  | .hbm, ⟨i, _⟩ => hbmTy i
  | _, _ => ⟨S4x2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call1_v0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_1 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call2_v0 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_2 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_call3_v0 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_c_3 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_call4_v0 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_c_4 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_call5_v0 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_c_5 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_call6_v0 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_c_6 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_call7_v0 : Ref sig .tc := ⟨.hbm, 126, rfl⟩
abbrev main_v106 : Ref sig .tc := ⟨.hbm, 127, rfl⟩
abbrev main_v107 : Ref sig .tc := ⟨.hbm, 128, rfl⟩

abbrev nD : Nat := 1
abbrev τ : Topo := Topo.v7x

variable {F : FTy → Type} [FloatOps F]

class Facts₀ : Prop where
  shapeCasts_S4x2048x2x1024_S16384x1024 : S4x2048x2x1024.ShapeCasts S16384x1024
  shapeCasts_S4x2048x2_S16384 : S4x2048x2.ShapeCasts S16384
  bcast_S_S16384x1024 : S_.BroadcastsInDim S16384x1024 (![] : Fin 0 → Fin S16384x1024.rank)
  slices_S1024x8x1024_S1024x1x1024_0_0_0 : S1024x8x1024.Slices ![0, 0, 0] S1024x1x1024
  shapeCasts_S1024x1x1024_S1024x1024 : S1024x1x1024.ShapeCasts S1024x1024
  transposes_S1024x1024_S1024x1024_1_0 : S1024x1024.Transposes [1, 0] S1024x1024
  slices_S1024x8x1_S1024x1x1_0_0_0 : S1024x8x1.Slices ![0, 0, 0] S1024x1x1
  shapeCasts_S1024x1x1_S1024 : S1024x1x1.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  slices_S1024x8x1024_S1024x1x1024_0_1_0 : S1024x8x1024.Slices ![0, 1, 0] S1024x1x1024
  slices_S1024x8x1_S1024x1x1_0_1_0 : S1024x8x1.Slices ![0, 1, 0] S1024x1x1
  slices_S1024x8x1024_S1024x1x1024_0_2_0 : S1024x8x1024.Slices ![0, 2, 0] S1024x1x1024
  slices_S1024x8x1_S1024x1x1_0_2_0 : S1024x8x1.Slices ![0, 2, 0] S1024x1x1
  slices_S1024x8x1024_S1024x1x1024_0_3_0 : S1024x8x1024.Slices ![0, 3, 0] S1024x1x1024
  slices_S1024x8x1_S1024x1x1_0_3_0 : S1024x8x1.Slices ![0, 3, 0] S1024x1x1
  slices_S1024x8x1024_S1024x1x1024_0_4_0 : S1024x8x1024.Slices ![0, 4, 0] S1024x1x1024
  slices_S1024x8x1_S1024x1x1_0_4_0 : S1024x8x1.Slices ![0, 4, 0] S1024x1x1
  slices_S1024x8x1024_S1024x1x1024_0_5_0 : S1024x8x1024.Slices ![0, 5, 0] S1024x1x1024
  slices_S1024x8x1_S1024x1x1_0_5_0 : S1024x8x1.Slices ![0, 5, 0] S1024x1x1
  slices_S1024x8x1024_S1024x1x1024_0_6_0 : S1024x8x1024.Slices ![0, 6, 0] S1024x1x1024
  slices_S1024x8x1_S1024x1x1_0_6_0 : S1024x8x1.Slices ![0, 6, 0] S1024x1x1
  slices_S1024x8x1024_S1024x1x1024_0_7_0 : S1024x8x1024.Slices ![0, 7, 0] S1024x1x1024
  slices_S1024x8x1_S1024x1x1_0_7_0 : S1024x8x1.Slices ![0, 7, 0] S1024x1x1
  shapeCasts_S16384x1024_S4x2048x2x1024 : S16384x1024.ShapeCasts S4x2048x2x1024
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.HostVals.lean ====
import proofs.«407576_j40785009442943_3_alg».proof.Proof.Gen.KernelIdeal
import Idealize.ShloMosaic.Lib.StableHlo.Run

noncomputable section

namespace Cert.KernelIdeal.HostVals

open Cert.KernelIdeal Cert.KernelIdeal.Gen Idealize.ShloMosaic Idealize.ShloMosaic.TcCoe Idealize.SL.Sem Idealize.ShloMosaic.StableHlo

variable {F : FTy → Type} [FloatOps F]

/-- The four argument arrays: tokens, expert ids, weights, biases. -/
structure Args (F : FTy → Type) where
  x0 : Vec F S4x2048x2x1024 .f32
  x1 : Vec F S4x2048x2 .i32
  x2 : Vec F S1024x8x1024 .f32
  x3 : Vec F S1024x8x1 .f32

def val_main_v0 (xs : Args F) : Vec F S16384x1024 .f32 :=
  shapeCast _ xs.x0 shapeCasts_S4x2048x2x1024_S16384x1024

def val_main_v1 (xs : Args F) : Vec F S16384 .i32 :=
  shapeCast _ xs.x1 shapeCasts_S4x2048x2_S16384

def val_main_call0_v0 (xs : Args F) : Vec F S16384 .i32 :=
  iotaInDim S16384 32 0

def val_main_call0_v1_0 (xs : Args F) : Vec F S16384 .i32 :=
  ((fun x y => (Host.sort2 S16384 0 comparator_i32_i32_d0 x y).1 : Vec F S16384 .i32 → Vec F S16384 .i32 → Vec F S16384 .i32) (val_main_v1 xs) (val_main_call0_v0 xs))

def val_main_v2 (xs : Args F) : Vec F S16384 .i32 :=
  ((fun x y => (Host.sort2 S16384 0 comparator_i32_i32_d0 x y).2 : Vec F S16384 .i32 → Vec F S16384 .i32 → Vec F S16384 .i32) (val_main_v1 xs) (val_main_call0_v0 xs))

def val_main_c (xs : Args F) : Vec F S_ .i32 :=
  constantI S_ 32 0#32

def val_main_v3 (xs : Args F) : Vec F S16384 .i32 :=
  (broadcastInDim S16384 ![] bcast_S_S16384 (val_main_c xs))

def val_main_v4 (xs : Args F) : Vec F S16384 .i1 :=
  (cmpi .slt (val_main_v2 xs) (val_main_v3 xs))

def val_main_c_0 (xs : Args F) : Vec F S_ .i32 :=
  constantI S_ 32 16384#32

def val_main_v5 (xs : Args F) : Vec F S16384 .i32 :=
  (broadcastInDim S16384 ![] bcast_S_S16384 (val_main_c_0 xs))

def val_main_v6 (xs : Args F) : Vec F S16384 .i32 :=
  (addi (val_main_v2 xs) (val_main_v5 xs))

def val_main_v7 (xs : Args F) : Vec F S16384 .i32 :=
  (select (val_main_v4 xs) (val_main_v6 xs) (val_main_v2 xs))

def val_main_v8 (xs : Args F) : Vec F S16384x1 .i32 :=
  (broadcastInDim S16384x1 ![0] bcast_S16384_S16384x1_0 (val_main_v7 xs))

def val_main_v9 (xs : Args F) : Vec F S16384 .i32 :=
  ((fun x i => Host.gather gather_S16384_S16384x1_S16384_n_0_n_n_0_1_1 x i) (val_main_v1 xs) (val_main_v8 xs))

def val_main_v10 (xs : Args F) : Vec F S16384x1 .i32 :=
  (broadcastInDim S16384x1 ![0] bcast_S16384_S16384x1_0 (val_main_v1 xs))

def val_main_v11 (xs : Args F) : Vec F S8 .i32 :=
  iotaInDim S8 32 0

def val_main_v12 (xs : Args F) : Vec F S1x8 .i32 :=
  (broadcastInDim S1x8 ![1] bcast_S8_S1x8_1 (val_main_v11 xs))

def val_main_v13 (xs : Args F) : Vec F S16384x8 .i32 :=
  (broadcastInDim S16384x8 ![0, 1] bcast_S16384x1_S16384x8_0_1 (val_main_v10 xs))

def val_main_v14 (xs : Args F) : Vec F S16384x8 .i32 :=
  (broadcastInDim S16384x8 ![0, 1] bcast_S1x8_S16384x8_0_1 (val_main_v12 xs))

def val_main_v15 (xs : Args F) : Vec F S16384x8 .i1 :=
  (cmpi .eq (val_main_v13 xs) (val_main_v14 xs))

def val_main_v16 (xs : Args F) : Vec F S16384x8 .i32 :=
  ((extui 32 · natLt_1_32) (val_main_v15 xs))

def val_main_c_1 (xs : Args F) : Vec F S_ .i32 :=
  constantI S_ 32 0#32

def val_main_v17 (xs : Args F) : Vec F S8 .i32 :=
  ((fun x v => Host.reduce IntOp.addi x v reducesTo_S16384x8_S8_d0 h_S_) (val_main_v16 xs) (val_main_c_1 xs))

def val_main_c_2 (xs : Args F) : Vec F S_ .i32 :=
  constantI S_ 32 512#32

def val_main_v18 (xs : Args F) : Vec F S8 .i32 :=
  (broadcastInDim S8 ![] bcast_S_S8 (val_main_c_2 xs))

def val_main_v19 (xs : Args F) : Vec F S8 .i32 :=
  (addi (val_main_v17 xs) (val_main_v18 xs))

def val_main_c_3 (xs : Args F) : Vec F S_ .i32 :=
  constantI S_ 32 1#32

def val_main_v20 (xs : Args F) : Vec F S8 .i32 :=
  (broadcastInDim S8 ![] bcast_S_S8 (val_main_c_3 xs))

def val_main_v21 (xs : Args F) : Vec F S8 .i32 :=
  (subi (val_main_v19 xs) (val_main_v20 xs))

def val_main_c_4 (xs : Args F) : Vec F S_ .i32 :=
  constantI S_ 32 512#32

def val_main_call1_v0 (xs : Args F) : Vec F S_ .i32 :=
  (id (val_main_c_4 xs))

def val_main_call1_v1 (xs : Args F) : Vec F S8 .i32 :=
  (broadcastInDim S8 ![] bcast_S_S8 (val_main_call1_v0 xs))

def val_main_call1_v2 (xs : Args F) : Vec F S8 .i32 :=
  (Host.divsi (val_main_v21 xs) (val_main_call1_v1 xs))

def val_main_call1_v3 (xs : Args F) : Vec F S8 .i32 :=
  (signi (val_main_v21 xs))

def val_main_call1_v4 (xs : Args F) : Vec F S_ .i32 :=
  (signi (val_main_call1_v0 xs))

def val_main_call1_v5 (xs : Args F) : Vec F S8 .i32 :=
  (broadcastInDim S8 ![] bcast_S_S8 (val_main_call1_v4 xs))

def val_main_call1_v6 (xs : Args F) : Vec F S8 .i1 :=
  (cmpi .ne (val_main_call1_v3 xs) (val_main_call1_v5 xs))

def val_main_call1_v7 (xs : Args F) : Vec F S8 .i32 :=
  (broadcastInDim S8 ![] bcast_S_S8 (val_main_call1_v0 xs))

def val_main_call1_v8 (xs : Args F) : Vec F S8 .i32 :=
  (Host.remsi (val_main_v21 xs) (val_main_call1_v7 xs))

def val_main_call1_c (xs : Args F) : Vec F S_ .i32 :=
  constantI S_ 32 0#32

def val_main_call1_v9 (xs : Args F) : Vec F S8 .i32 :=
  (broadcastInDim S8 ![] bcast_S_S8 (val_main_call1_c xs))

def val_main_call1_v10 (xs : Args F) : Vec F S8 .i1 :=
  (cmpi .ne (val_main_call1_v8 xs) (val_main_call1_v9 xs))

def val_main_call1_v11 (xs : Args F) : Vec F S8 .i1 :=
  (andi (val_main_call1_v6 xs) (val_main_call1_v10 xs))

def val_main_call1_c_0 (xs : Args F) : Vec F S_ .i32 :=
  constantI S_ 32 1#32

def val_main_call1_v12 (xs : Args F) : Vec F S8 .i32 :=
  (broadcastInDim S8 ![] bcast_S_S8 (val_main_call1_c_0 xs))

def val_main_call1_v13 (xs : Args F) : Vec F S8 .i32 :=
  (subi (val_main_call1_v2 xs) (val_main_call1_v12 xs))

def val_main_v22 (xs : Args F) : Vec F S8 .i32 :=
  (select (val_main_call1_v11 xs) (val_main_call1_v13 xs) (val_main_call1_v2 xs))

def val_main_c_5 (xs : Args F) : Vec F S_ .i32 :=
  constantI S_ 32 512#32

def val_main_v23 (xs : Args F) : Vec F S8 .i32 :=
  (broadcastInDim S8 ![] bcast_S_S8 (val_main_c_5 xs))

def val_main_v24 (xs : Args F) : Vec F S8 .i32 :=
  (muli (val_main_v22 xs) (val_main_v23 xs))

def val_main_c_6 (xs : Args F) : Vec F S_ .i32 :=
  constantI S_ 32 0#32

def val_main_v25 (xs : Args F) : Vec F S1 .i32 :=
  (broadcastInDim S1 ![] bcast_S_S1 (val_main_c_6 xs))

def val_main_call2_call0_c (xs : Args F) : Vec F S_ .i32 :=
  constantI S_ 32 0#32

def val_main_call2_call0_v0 (xs : Args F) : Vec F S_ .i32 :=
  (broadcastInDim S_ ![] bcast_S_S_ (val_main_call2_call0_c xs))

def val_main_v26 (xs : Args F) : Vec F S8 .i32 :=
  ((fun x v => Host.reduceWindow IntOp.addi ![8] ![1] ![7] ![0] x v reduceWindows_S8_S8_w8s1p7_0 h_S_ : Vec F S8 .i32 → Vec F S_ .i32 → Vec F S8 .i32) (val_main_v17 xs) (val_main_call2_call0_v0 xs))

def val_main_v27 (xs : Args F) : Vec F S9 .i32 :=
  ((fun a b => concatenate S9 0 [⟨S1, a⟩, ⟨S8, b⟩] concatenates_S1_S8_S9_d0) (val_main_v25 xs) (val_main_v26 xs))

def val_main_v28 (xs : Args F) : Vec F S8 .i32 :=
  ((extractStridedSlice S8 ![0] · slices_S9_S8_0) (val_main_v27 xs))

def val_main_c_7 (xs : Args F) : Vec F S_ .i32 :=
  constantI S_ 32 0#32

def val_main_v29 (xs : Args F) : Vec F S1 .i32 :=
  (broadcastInDim S1 ![] bcast_S_S1 (val_main_c_7 xs))

def val_main_call3_call0_c (xs : Args F) : Vec F S_ .i32 :=
  constantI S_ 32 0#32

def val_main_call3_call0_v0 (xs : Args F) : Vec F S_ .i32 :=
  (broadcastInDim S_ ![] bcast_S_S_ (val_main_call3_call0_c xs))

def val_main_v30 (xs : Args F) : Vec F S8 .i32 :=
  ((fun x v => Host.reduceWindow IntOp.addi ![8] ![1] ![7] ![0] x v reduceWindows_S8_S8_w8s1p7_0 h_S_ : Vec F S8 .i32 → Vec F S_ .i32 → Vec F S8 .i32) (val_main_v24 xs) (val_main_call3_call0_v0 xs))

def val_main_v31 (xs : Args F) : Vec F S9 .i32 :=
  ((fun a b => concatenate S9 0 [⟨S1, a⟩, ⟨S8, b⟩] concatenates_S1_S8_S9_d0) (val_main_v29 xs) (val_main_v30 xs))

def val_main_c_8 (xs : Args F) : Vec F S_ .i32 :=
  constantI S_ 32 0#32

def val_main_v32 (xs : Args F) : Vec F S16384 .i32 :=
  (broadcastInDim S16384 ![] bcast_S_S16384 (val_main_c_8 xs))

def val_main_v33 (xs : Args F) : Vec F S16384 .i1 :=
  (cmpi .slt (val_main_v9 xs) (val_main_v32 xs))

def val_main_c_9 (xs : Args F) : Vec F S_ .i32 :=
  constantI S_ 32 8#32

def val_main_v34 (xs : Args F) : Vec F S16384 .i32 :=
  (broadcastInDim S16384 ![] bcast_S_S16384 (val_main_c_9 xs))

def val_main_v35 (xs : Args F) : Vec F S16384 .i32 :=
  (addi (val_main_v9 xs) (val_main_v34 xs))

def val_main_v36 (xs : Args F) : Vec F S16384 .i32 :=
  (select (val_main_v33 xs) (val_main_v35 xs) (val_main_v9 xs))

def val_main_v37 (xs : Args F) : Vec F S16384x1 .i32 :=
  (broadcastInDim S16384x1 ![0] bcast_S16384_S16384x1_0 (val_main_v36 xs))

def val_main_v38 (xs : Args F) : Vec F S16384 .i32 :=
  ((fun x i => Host.gather gather_S8_S16384x1_S16384_n_0_n_n_0_1_1 x i) (val_main_v28 xs) (val_main_v37 xs))

def val_main_v39 (xs : Args F) : Vec F S8 .i32 :=
  ((extractStridedSlice S8 ![0] · slices_S9_S8_0) (val_main_v31 xs))

def val_main_c_10 (xs : Args F) : Vec F S_ .i32 :=
  constantI S_ 32 0#32

def val_main_v40 (xs : Args F) : Vec F S16384 .i32 :=
  (broadcastInDim S16384 ![] bcast_S_S16384 (val_main_c_10 xs))

def val_main_v41 (xs : Args F) : Vec F S16384 .i1 :=
  (cmpi .slt (val_main_v9 xs) (val_main_v40 xs))

def val_main_c_11 (xs : Args F) : Vec F S_ .i32 :=
  constantI S_ 32 8#32

def val_main_v42 (xs : Args F) : Vec F S16384 .i32 :=
  (broadcastInDim S16384 ![] bcast_S_S16384 (val_main_c_11 xs))

def val_main_v43 (xs : Args F) : Vec F S16384 .i32 :=
  (addi (val_main_v9 xs) (val_main_v42 xs))

def val_main_v44 (xs : Args F) : Vec F S16384 .i32 :=
  (select (val_main_v41 xs) (val_main_v43 xs) (val_main_v9 xs))

def val_main_v45 (xs : Args F) : Vec F S16384x1 .i32 :=
  (broadcastInDim S16384x1 ![0] bcast_S16384_S16384x1_0 (val_main_v44 xs))

def val_main_v46 (xs : Args F) : Vec F S16384 .i32 :=
  ((fun x i => Host.gather gather_S8_S16384x1_S16384_n_0_n_n_0_1_1 x i) (val_main_v39 xs) (val_main_v45 xs))

def val_main_v47 (xs : Args F) : Vec F S16384 .i32 :=
  iotaInDim S16384 32 0

def val_main_v48 (xs : Args F) : Vec F S16384 .i32 :=
  (subi (val_main_v47 xs) (val_main_v38 xs))

def val_main_v49 (xs : Args F) : Vec F S16384 .i32 :=
  (addi (val_main_v46 xs) (val_main_v48 xs))

def val_main_v50 (xs : Args F) : Vec F S40 .i32 :=
  iotaInDim S40 32 0

def val_main_c_12 (xs : Args F) : Vec F S_ .i32 :=
  constantI S_ 32 512#32

def val_main_v51 (xs : Args F) : Vec F S40 .i32 :=
  (broadcastInDim S40 ![] bcast_S_S40 (val_main_c_12 xs))

def val_main_v52 (xs : Args F) : Vec F S40 .i32 :=
  (muli (val_main_v50 xs) (val_main_v51 xs))

def val_main_v53 (xs : Args F) : Vec F S7 .i32 :=
  ((extractStridedSlice S7 ![1] · slices_S9_S7_1) (val_main_v31 xs))

def val_main_v54 (xs : Args F) : Vec F S40x1 .i32 :=
  (broadcastInDim S40x1 ![0] bcast_S40_S40x1_0 (val_main_v52 xs))

def val_main_v55 (xs : Args F) : Vec F S1x7 .i32 :=
  (broadcastInDim S1x7 ![1] bcast_S7_S1x7_1 (val_main_v53 xs))

def val_main_v56 (xs : Args F) : Vec F S40x7 .i32 :=
  (broadcastInDim S40x7 ![0, 1] bcast_S40x1_S40x7_0_1 (val_main_v54 xs))

def val_main_v57 (xs : Args F) : Vec F S40x7 .i32 :=
  (broadcastInDim S40x7 ![0, 1] bcast_S1x7_S40x7_0_1 (val_main_v55 xs))

def val_main_v58 (xs : Args F) : Vec F S40x7 .i1 :=
  (cmpi .sge (val_main_v56 xs) (val_main_v57 xs))

def val_main_v59 (xs : Args F) : Vec F S40x7 .i32 :=
  ((extui 32 · natLt_1_32) (val_main_v58 xs))

def val_main_c_13 (xs : Args F) : Vec F S_ .i32 :=
  constantI S_ 32 0#32

def val_main_v60 (xs : Args F) : Vec F S40 .i32 :=
  ((fun x v => Host.reduce IntOp.addi x v reducesTo_S40x7_S40_d1 h_S_) (val_main_v59 xs) (val_main_c_13 xs))

def val_main_c_14 (xs : Args F) : Vec F S_ .i32 :=
  constantI S_ 32 0#32

def val_main_c_15 (xs : Args F) : Vec F S_ .i32 :=
  constantI S_ 32 7#32

def val_main_call4_v0 (xs : Args F) : Vec F S_ .i32 :=
  (id (val_main_c_14 xs))

def val_main_call4_v1 (xs : Args F) : Vec F S40 .i32 :=
  (broadcastInDim S40 ![] bcast_S_S40 (val_main_call4_v0 xs))

def val_main_call4_v2 (xs : Args F) : Vec F S40 .i32 :=
  (maxsi (val_main_call4_v1 xs) (val_main_v60 xs))

def val_main_call4_v3 (xs : Args F) : Vec F S_ .i32 :=
  (id (val_main_c_15 xs))

def val_main_call4_v4 (xs : Args F) : Vec F S40 .i32 :=
  (broadcastInDim S40 ![] bcast_S_S40 (val_main_call4_v3 xs))

def val_main_v61 (xs : Args F) : Vec F S40 .i32 :=
  (minsi (val_main_call4_v4 xs) (val_main_call4_v2 xs))

def val_main_c_16 (xs : Args F) : Vec F S_ .i32 :=
  constantI S_ 32 0#32

def val_main_v62 (xs : Args F) : Vec F S16384 .i32 :=
  (broadcastInDim S16384 ![] bcast_S_S16384 (val_main_c_16 xs))

def val_main_v63 (xs : Args F) : Vec F S16384 .i1 :=
  (cmpi .slt (val_main_v2 xs) (val_main_v62 xs))

def val_main_c_17 (xs : Args F) : Vec F S_ .i32 :=
  constantI S_ 32 16384#32

def val_main_v64 (xs : Args F) : Vec F S16384 .i32 :=
  (broadcastInDim S16384 ![] bcast_S_S16384 (val_main_c_17 xs))

def val_main_v65 (xs : Args F) : Vec F S16384 .i32 :=
  (addi (val_main_v2 xs) (val_main_v64 xs))

def val_main_v66 (xs : Args F) : Vec F S16384 .i32 :=
  (select (val_main_v63 xs) (val_main_v65 xs) (val_main_v2 xs))

def val_main_v67 (xs : Args F) : Vec F S16384x1 .i32 :=
  (broadcastInDim S16384x1 ![0] bcast_S16384_S16384x1_0 (val_main_v66 xs))

def val_main_v68 (xs : Args F) : Vec F S16384x1024 .f32 :=
  ((fun x i => Host.gather gather_S16384x1024_S16384x1_S16384x1024_1_0_n_n_0_1_11024 x i) (val_main_v0 xs) (val_main_v67 xs))

def val_main_v69 (xs : Args F) : Vec F S16384x1024 .bf16 :=
  ((truncf .bf16 · bitsLt_bf16_f32) (val_main_v68 xs))

def val_main_cst (xs : Args F) : Vec F S_ .bf16 :=
  constant S_ .bf16 0x0000#16

def val_main_v70 (xs : Args F) : Vec F S20480x1024 .bf16 :=
  (broadcastInDim S20480x1024 ![] bcast_S_S20480x1024 (val_main_cst xs))

def val_main_c_18 (xs : Args F) : Vec F S_ .i32 :=
  constantI S_ 32 0#32

def val_main_v71 (xs : Args F) : Vec F S16384 .i32 :=
  (broadcastInDim S16384 ![] bcast_S_S16384 (val_main_c_18 xs))

def val_main_v72 (xs : Args F) : Vec F S16384 .i1 :=
  (cmpi .slt (val_main_v49 xs) (val_main_v71 xs))

def val_main_c_19 (xs : Args F) : Vec F S_ .i32 :=
  constantI S_ 32 20480#32

def val_main_v73 (xs : Args F) : Vec F S16384 .i32 :=
  (broadcastInDim S16384 ![] bcast_S_S16384 (val_main_c_19 xs))

def val_main_v74 (xs : Args F) : Vec F S16384 .i32 :=
  (addi (val_main_v49 xs) (val_main_v73 xs))

def val_main_v75 (xs : Args F) : Vec F S16384 .i32 :=
  (select (val_main_v72 xs) (val_main_v74 xs) (val_main_v49 xs))

def val_main_v76 (xs : Args F) : Vec F S16384x1 .i32 :=
  (broadcastInDim S16384x1 ![0] bcast_S16384_S16384x1_0 (val_main_v75 xs))

def val_main_v77 (xs : Args F) : Vec F S20480x1024 .bf16 :=
  (((fun x i u => Host.scatter scatter_S20480x1024_S16384x1_S16384x1024_1_0_0_1 (fun _ b => b) x i u) : Vec F S20480x1024 .bf16 → Vec F S16384x1 .i32 → Vec F S16384x1024 .bf16 → Vec F S20480x1024 .bf16) (val_main_v70 xs) (val_main_v76 xs) (val_main_v69 xs))

def val_main_v78 (xs : Args F) : Vec F S8x1024x1024 .f32 :=
  ((transpose S8x1024x1024 [1, 2, 0] · transposes_S1024x8x1024_S8x1024x1024_1_2_0) xs.x2)

def val_main_v79 (xs : Args F) : Vec F S8x1024x1024 .bf16 :=
  ((truncf .bf16 · bitsLt_bf16_f32) (val_main_v78 xs))

def val_main_v80 (xs : Args F) : Vec F S1024x8 .f32 :=
  shapeCast _ xs.x3 shapeCasts_S1024x8x1_S1024x8

def val_main_v81 (xs : Args F) : Vec F S8x1024 .f32 :=
  ((transpose S8x1024 [1, 0] · transposes_S1024x8_S8x1024_1_0) (val_main_v80 xs))

def val_main_v82 (xs : Args F) : Vec F S8x1x1024 .f32 :=
  (broadcastInDim S8x1x1024 ![0, 2] bcast_S8x1024_S8x1x1024_0_2 (val_main_v81 xs))

def tail_main_c_20 (o83 : Vec F S20480x1024 .f32) (xs : Args F) : Vec F S_ .i32 :=
  constantI S_ 32 0#32

def tail_main_v84 (o83 : Vec F S20480x1024 .f32) (xs : Args F) : Vec F S16384 .i32 :=
  (broadcastInDim S16384 ![] bcast_S_S16384 (tail_main_c_20 o83 xs))

def tail_main_v85 (o83 : Vec F S20480x1024 .f32) (xs : Args F) : Vec F S16384 .i1 :=
  (cmpi .slt (val_main_v49 xs) (tail_main_v84 o83 xs))

def tail_main_c_21 (o83 : Vec F S20480x1024 .f32) (xs : Args F) : Vec F S_ .i32 :=
  constantI S_ 32 20480#32

def tail_main_v86 (o83 : Vec F S20480x1024 .f32) (xs : Args F) : Vec F S16384 .i32 :=
  (broadcastInDim S16384 ![] bcast_S_S16384 (tail_main_c_21 o83 xs))

def tail_main_v87 (o83 : Vec F S20480x1024 .f32) (xs : Args F) : Vec F S16384 .i32 :=
  (addi (val_main_v49 xs) (tail_main_v86 o83 xs))

def tail_main_v88 (o83 : Vec F S20480x1024 .f32) (xs : Args F) : Vec F S16384 .i32 :=
  (select (tail_main_v85 o83 xs) (tail_main_v87 o83 xs) (val_main_v49 xs))

def tail_main_v89 (o83 : Vec F S20480x1024 .f32) (xs : Args F) : Vec F S16384x1 .i32 :=
  (broadcastInDim S16384x1 ![0] bcast_S16384_S16384x1_0 (tail_main_v88 o83 xs))

def tail_main_v90 (o83 : Vec F S20480x1024 .f32) (xs : Args F) : Vec F S16384x1024 .f32 :=
  ((fun x i => Host.gather gather_S20480x1024_S16384x1_S16384x1024_1_0_n_n_0_1_11024 x i) o83 (tail_main_v89 o83 xs))

def tail_main_cst_22 (o83 : Vec F S20480x1024 .f32) (xs : Args F) : Vec F S_ .f32 :=
  constant S_ .f32 0x00000000#32

def tail_main_v91 (o83 : Vec F S20480x1024 .f32) (xs : Args F) : Vec F S16384x1024 .f32 :=
  (broadcastInDim S16384x1024 ![] bcast_S_S16384x1024 (tail_main_cst_22 o83 xs))

def tail_main_c_23 (o83 : Vec F S20480x1024 .f32) (xs : Args F) : Vec F S_ .i32 :=
  constantI S_ 32 0#32

def tail_main_v92 (o83 : Vec F S20480x1024 .f32) (xs : Args F) : Vec F S16384 .i32 :=
  (broadcastInDim S16384 ![] bcast_S_S16384 (tail_main_c_23 o83 xs))

def tail_main_v93 (o83 : Vec F S20480x1024 .f32) (xs : Args F) : Vec F S16384 .i1 :=
  (cmpi .slt (val_main_v2 xs) (tail_main_v92 o83 xs))

def tail_main_c_24 (o83 : Vec F S20480x1024 .f32) (xs : Args F) : Vec F S_ .i32 :=
  constantI S_ 32 16384#32

def tail_main_v94 (o83 : Vec F S20480x1024 .f32) (xs : Args F) : Vec F S16384 .i32 :=
  (broadcastInDim S16384 ![] bcast_S_S16384 (tail_main_c_24 o83 xs))

def tail_main_v95 (o83 : Vec F S20480x1024 .f32) (xs : Args F) : Vec F S16384 .i32 :=
  (addi (val_main_v2 xs) (tail_main_v94 o83 xs))

def tail_main_v96 (o83 : Vec F S20480x1024 .f32) (xs : Args F) : Vec F S16384 .i32 :=
  (select (tail_main_v93 o83 xs) (tail_main_v95 o83 xs) (val_main_v2 xs))

def tail_main_v97 (o83 : Vec F S20480x1024 .f32) (xs : Args F) : Vec F S16384x1 .i32 :=
  (broadcastInDim S16384x1 ![0] bcast_S16384_S16384x1_0 (tail_main_v96 o83 xs))

def tail_main_v98 (o83 : Vec F S20480x1024 .f32) (xs : Args F) : Vec F S16384x1024 .f32 :=
  (((fun x i u => Host.scatter scatter_S16384x1024_S16384x1_S16384x1024_1_0_0_1 (fun _ b => b) x i u) : Vec F S16384x1024 .f32 → Vec F S16384x1 .i32 → Vec F S16384x1024 .f32 → Vec F S16384x1024 .f32) (tail_main_v91 o83 xs) (tail_main_v97 o83 xs) (tail_main_v90 o83 xs))

def tail_main_v99 (o83 : Vec F S20480x1024 .f32) (xs : Args F) : Vec F S4x2048x2x1024 .f32 :=
  shapeCast _ (tail_main_v98 o83 xs) shapeCasts_S16384x1024_S4x2048x2x1024

end Cert.KernelIdeal.HostVals
end
-- ==== Proof.HostRead.lean ====
/- The buffers the rest of the proof reads, as the composed functions of the four argument arrays. -/
import proofs.«407576_j40785009442943_3_alg».proof.Proof.Gen.KernelIdeal.Frame.Runs
import proofs.«407576_j40785009442943_3_alg».proof.Proof.HostVals

set_option maxRecDepth 16384
set_option maxHeartbeats 4000000

noncomputable section

namespace Cert.KernelIdeal.HostRead

open Cert.KernelIdeal Cert.KernelIdeal.Gen Cert.KernelIdeal.HostVals
open Idealize.ShloMosaic Idealize.ShloMosaic.TcCoe Idealize.SL.Sem Idealize.ShloMosaic.StableHlo

variable {F : FTy → Type} [FloatOps F]

/-- A zero in front of the running sum of the per-expert counts, as a function of its two operands. -/
def catStarts (a : (main_v25 : Ref sig .tc).ty.Contents (Elt F)) (b : (main_v26 : Ref sig .tc).ty.Contents (Elt F)) :
    (main_v27 : Ref sig .tc).ty.Contents (Elt F) :=
  concatenate S9 0 [⟨S1, a⟩, ⟨S8, b⟩] concatenates_S1_S8_S9_d0

/-- The same in front of the running sum of the padded counts. -/
def catOffsets (a : (main_v29 : Ref sig .tc).ty.Contents (Elt F)) (b : (main_v30 : Ref sig .tc).ty.Contents (Elt F)) :
    (main_v31 : Ref sig .tc).ty.Contents (Elt F) :=
  concatenate S9 0 [⟨S1, a⟩, ⟨S8, b⟩] concatenates_S1_S8_S9_d0

theorem stretch6_eq : (hostOps0_6 : List (HloOp τ sig (Elt F)))
    = StableHlo.binary main_v25 main_v26 main_v27 (catStarts (F := F)) :: (hostOps0_6 : List (HloOp τ sig (Elt F))).tail := rfl

theorem stretch8_eq : (hostOps0_8 : List (HloOp τ sig (Elt F)))
    = StableHlo.binary main_v29 main_v30 main_v31 (catOffsets (F := F)) :: (hostOps0_8 : List (HloOp τ sig (Elt F))).tail := rfl

variable (m : (ℓ : Loc nD τ sig) → Buf (Elt F) ℓ)

/-- Device `c`'s four argument arrays. -/
abbrev args (c : Dev nD) : Args F :=
  ⟨m ((c : Thread nD τ).loc main_arg0), m ((c : Thread nD τ).loc main_arg1), m ((c : Thread nD τ).loc main_arg2), m ((c : Thread nD τ).loc main_arg3)⟩

local macro "host_read" : tactic => `(tactic| (
  dsimp only [V, V0]
  rw [stretch6_eq, stretch8_eq]
  simp only [hostOps0, hostOps0_1, hostOps0_2, hostOps0_3, hostOps0_4, hostOps0_5, hostOps0_6, hostOps0_7, hostOps0_8, hostOps0_9, hostOps0_10, List.tail_cons, List.flatten_cons, List.flatten_nil, List.append_nil, List.cons_append, List.nil_append]
  after_results_simp <;> (try simp only [cast_eq]) <;> rfl))

theorem V_main_v2 (c : Dev nD) : V m c main_v2 = val_main_v2 (args m c) := by host_read
theorem V_main_v49 (c : Dev nD) : V m c main_v49 = val_main_v49 (args m c) := by host_read
theorem V_main_v61 (c : Dev nD) : V m c main_v61 = val_main_v61 (args m c) := by host_read
theorem V_main_v77 (c : Dev nD) : V m c main_v77 = val_main_v77 (args m c) := by host_read
theorem V_main_v79 (c : Dev nD) : V m c main_v79 = val_main_v79 (args m c) := by host_read
theorem V_main_v82 (c : Dev nD) : V m c main_v82 = val_main_v82 (args m c) := by host_read

end Cert.KernelIdeal.HostRead

end
-- ==== Proof.Region.lean ====
/- The product array: row r, in tile r / 512 with expert g, holds Σ_k xpad[r, k] · w[g, k, o] + b[g, 0, o]. -/
import proofs.«407576_j40785009442943_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)

section AnyInstance

variable {F : FTy → Type} [FloatOps F]
variable (m : (ℓ : Loc nD τ sig) → Buf (Elt F) ℓ)

abbrev outArr (hO : Ok m) (c : Dev nD) : (⟨S20480x1024, .f32⟩ : BufTy).Contents (Elt F) :=
  (dats m hO 0 c).arrAt 3 (cfgM m hO).N

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's one store covers the block, which therefore ends as the body's arithmetic of the three input blocks. -/
theorem body_leaves (c : Dev nD) (i : grid0.Coords) (a2 : Memref sig .tc .vmem S512x1024 .bf16) (h2 : a2.IsWhole)
    (a3 : Memref sig .tc .vmem S1x1024x1024 .bf16) (h3 : a3.IsWhole) (a4 : Memref sig .tc .vmem S1x1x1024 .f32) (h4 : a4.IsWhole)
    (a5 : Memref sig .tc .vmem S512x1024 .f32) (h5 : a5.IsWhole)
    (x0 : Vec F S512x1024 .bf16) (x1 : Vec F S1x1024x1024 .bf16) (x2 : Vec F S1x1x1024 .f32) (xt0 : TbBuf0 (F := F) c tbM0_0) :
    out0_A_3 c i a2 h2 a3 h3 a4 h4 a5 h5 x0 x1 x2 xt0 = k0_pay1 x0 x1 x2 := by
  unfold out0_A_3
  rw [View.read_writes_eq_canon _ _ _ (cover0_A_3 c i a2 h2 a3 h3 a4 h4 a5 h5 x0 x1 x2 xt0)]
  unfold kernelRun0_A
  dsimp only
  sl_unfold_words
  rw [View.canon_unit_zero zeros2]
  simp only [View.readAt_eq_ld, h2.read_unread, h3.read_unread, h4.read_unread,
    View.ld_unit_zero (S := S512x1024) zeros2, View.ld_unit_zero (S := S1x1024x1024) zeros3, View.ld_unit_zero (S := S1x1x1024) zeros3]

theorem point_leaves (hO : Ok m) (c : Dev nD) (t : Fin (cfgM m hO).N) :
    outsAt0 m hO c t = k0_pay1 (iblk m hO c 0 t) (iblk m hO c 1 t) (iblk m hO c 2 t) := by
  unfold outsAt0
  exact body_leaves c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (iblk m hO c 2 t) (tbl m 0)

theorem tokens_index : ∀ t : Fin grid0.N, cc0_transform_0 (grid0.coords t) 0 = t.val ∧ cc0_transform_0 (grid0.coords t) 1 = 0 := by
  decide +kernel
theorem result_index : ∀ t : Fin grid0.N, cc0_transform_3 (grid0.coords t) 0 = t.val ∧ cc0_transform_3 (grid0.coords t) 1 = 0 := by
  decide +kernel

theorem table_offset : ∀ t : Fin grid0.N, k0_off1 (grid0.coords t) 0 = t.val := by decide +kernel

theorem win0_index (a : (pcfg0 (F := F)).Adm) (t : Fin (cfg0 a).N) :
    ((cfg0 a).win 0).index t = cc0_transform_0 (grid0.coords t) := rfl
theorem win1_index (a : (pcfg0 (F := F)).Adm) (t : Fin (cfg0 a).N) :
    ((cfg0 a).win 1).index t = cc0_transform_1 k0_off1_inb numel1_S1 a.1 (grid0.coords t) := rfl
theorem win2_index (a : (pcfg0 (F := F)).Adm) (t : Fin (cfg0 a).N) :
    ((cfg0 a).win 2).index t = cc0_transform_2 k0_off1_inb numel1_S1 a.1 (grid0.coords t) := rfl
theorem win3_index (a : (pcfg0 (F := F)).Adm) (t : Fin (cfg0 a).N) :
    ((cfg0 a).win 3).index t = cc0_transform_3 (grid0.coords t) := rfl

theorem weights_map (pf : pre0.Contents (Elt F)) (i : grid0.Coords) :
    cc0_transform_1 k0_off1_inb numel1_S1 pf i
      = ![((pf.at 0 (Rect.unit (s := S40) (k0_off1 i) S1.size (k0_off1_inb i)) numel1_S1 : BitVec 32)).toNat, 0, 0] := rfl
theorem bias_map (pf : pre0.Contents (Elt F)) (i : grid0.Coords) :
    cc0_transform_2 k0_off1_inb numel1_S1 pf i
      = ![((pf.at 0 (Rect.unit (s := S40) (k0_off1 i) S1.size (k0_off1_inb i)) numel1_S1 : BitVec 32)).toNat, 0, 0] := rfl

/-- The one-entry rectangle at offset t reads the table's entry t. -/
theorem word_at (pf : pre0.Contents (Elt F)) (t : Fin grid0.N) (τ : Fin 40) (hτ : τ.val = t.val) :
    (pf.at 0 (Rect.unit (s := S40) (k0_off1 (grid0.coords t)) S1.size (k0_off1_inb (grid0.coords t))) numel1_S1 : BitVec 32)
      = pf 0 (ix1 τ) := by
  show pf 0 _ = pf 0 _
  refine congrArg (pf 0) ?_
  funext ax; apply Fin.ext
  match ax with
  | ⟨0, _⟩ => show k0_off1 (grid0.coords t) 0 + 1 * 0 = τ.val; rw [table_offset t, hτ]; omega

theorem weights_index (pf : pre0.Contents (Elt F)) (t : Fin grid0.N) (τ : Fin 40) (hτ : τ.val = t.val) :
    cc0_transform_1 k0_off1_inb numel1_S1 pf (grid0.coords t) 0 = ((pf 0 (ix1 τ) : BitVec 32)).toNat
    ∧ cc0_transform_1 k0_off1_inb numel1_S1 pf (grid0.coords t) 1 = 0
    ∧ cc0_transform_1 k0_off1_inb numel1_S1 pf (grid0.coords t) 2 = 0 :=
  ⟨(congrFun (weights_map pf (grid0.coords t)) 0).trans (congrArg BitVec.toNat (word_at pf t τ hτ)),
   congrFun (weights_map pf (grid0.coords t)) 1, congrFun (weights_map pf (grid0.coords t)) 2⟩

theorem bias_index (pf : pre0.Contents (Elt F)) (t : Fin grid0.N) (τ : Fin 40) (hτ : τ.val = t.val) :
    cc0_transform_2 k0_off1_inb numel1_S1 pf (grid0.coords t) 0 = ((pf 0 (ix1 τ) : BitVec 32)).toNat
    ∧ cc0_transform_2 k0_off1_inb numel1_S1 pf (grid0.coords t) 1 = 0
    ∧ cc0_transform_2 k0_off1_inb numel1_S1 pf (grid0.coords t) 2 = 0 :=
  ⟨(congrFun (bias_map pf (grid0.coords t)) 0).trans (congrArg BitVec.toNat (word_at pf t τ hτ)),
   congrFun (bias_map pf (grid0.coords t)) 1, congrFun (bias_map pf (grid0.coords t)) 2⟩

/-- The weight block [word, word + 1) lies inside the 8 experts, so the word is below 8. -/
theorem word_lt (a : (pcfg0 (F := F)).Adm) (t : Fin grid0.N) (τ : Fin 40) (hτ : τ.val = t.val) :
    ((a.1 0 (ix1 τ) : BitVec 32)).toNat < 8 := by
  obtain ⟨h, -⟩ := a.2.1 (grid0.coords t)
  have h0 := h 0
  rw [(weights_index a.1 t τ hτ).1] at h0
  have h1 : ((a.1 0 (ix1 τ) : BitVec 32).toNat + 1) * 1 ≤ 8 := h0
  omega

/-- A block's coordinate is block index × block size + the coordinate inside: row p of block t is row t · 512 + p. -/
theorem tokens_read (a : (pcfg0 (F := F)).Adm) (t : Fin (cfg0 a).N) (A : Vec F S20480x1024 .bf16) (p : Fin 512) (k : Fin 1024)
    (r : Fin 20480) (hr : r.val = t.val * 512 + p.val) :
    ((((cfg0 a).win 0).blk t).view.read (Elt F) A : Vec F S512x1024 .bf16) (ix2 p k) = A (ix2 r k) := by
  show A ((((cfg0 a).win 0).blk t).view.emb (ix2 p k)) = A (ix2 r k)
  refine congrArg A ?_
  obtain ⟨e0, e1⟩ := tokens_index t
  funext ax; apply Fin.ext
  match ax with
  | ⟨0, _⟩ =>
    show ((cfg0 a).win 0).index t (0 : Fin 2) * 512 + 1 * p.val = r.val
    rw [win0_index, e0, hr]; omega
  | ⟨1, _⟩ =>
    show ((cfg0 a).win 0).index t (1 : Fin 2) * 1024 + 1 * k.val = k.val
    rw [win0_index, e1]; omega

theorem result_read (a : (pcfg0 (F := F)).Adm) (t : Fin (cfg0 a).N) (A : Vec F S20480x1024 .f32) (p : Fin 512) (q : Fin 1024)
    (r : Fin 20480) (hr : r.val = t.val * 512 + p.val) :
    ((((cfg0 a).win 3).blk t).view.read (Elt F) A : Vec F S512x1024 .f32) (ix2 p q) = A (ix2 r q) := by
  show A ((((cfg0 a).win 3).blk t).view.emb (ix2 p q)) = A (ix2 r q)
  refine congrArg A ?_
  obtain ⟨e0, e1⟩ := result_index t
  funext ax; apply Fin.ext
  match ax with
  | ⟨0, _⟩ =>
    show ((cfg0 a).win 3).index t (0 : Fin 2) * 512 + 1 * p.val = r.val
    rw [win3_index, e0, hr]; omega
  | ⟨1, _⟩ =>
    show ((cfg0 a).win 3).index t (1 : Fin 2) * 1024 + 1 * q.val = q.val
    rw [win3_index, e1]; omega

/-- The weight block of point t is the matrix of the expert the table's word for t names. -/
theorem weights_read (a : (pcfg0 (F := F)).Adm) (t : Fin (cfg0 a).N) (A : Vec F S8x1024x1024 .bf16) (k q : Fin 1024)
    (g : Fin 8) (τ : Fin 40) (hτ : τ.val = t.val) (hg : ((a.1 0 (ix1 τ) : BitVec 32)).toNat = g.val) :
    ((((cfg0 a).win 1).blk t).view.read (Elt F) A : Vec F S1x1024x1024 .bf16) (ix3 (0 : Fin 1) k q) = A (ix3 g k q) := by
  show A ((((cfg0 a).win 1).blk t).view.emb (ix3 (0 : Fin 1) k q)) = A (ix3 g k q)
  refine congrArg A ?_
  obtain ⟨e0, e1, e2⟩ := weights_index a.1 t τ hτ
  funext ax; apply Fin.ext
  match ax with
  | ⟨0, _⟩ =>
    show ((cfg0 a).win 1).index t (0 : Fin 3) * 1 + 1 * 0 = g.val
    rw [win1_index, e0, hg]; omega
  | ⟨1, _⟩ =>
    show ((cfg0 a).win 1).index t (1 : Fin 3) * 1024 + 1 * k.val = k.val
    rw [win1_index, e1]; omega
  | ⟨2, _⟩ =>
    show ((cfg0 a).win 1).index t (2 : Fin 3) * 1024 + 1 * q.val = q.val
    rw [win1_index, e2]; omega

theorem bias_read (a : (pcfg0 (F := F)).Adm) (t : Fin (cfg0 a).N) (A : Vec F S8x1x1024 .f32) (q : Fin 1024)
    (g : Fin 8) (τ : Fin 40) (hτ : τ.val = t.val) (hg : ((a.1 0 (ix1 τ) : BitVec 32)).toNat = g.val) :
    ((((cfg0 a).win 2).blk t).view.read (Elt F) A : Vec F S1x1x1024 .f32) (ix3 (0 : Fin 1) (0 : Fin 1) q)
      = A (ix3 g (0 : Fin 1) q) := by
  show A ((((cfg0 a).win 2).blk t).view.emb (ix3 (0 : Fin 1) (0 : Fin 1) q)) = A (ix3 g (0 : Fin 1) q)
  refine congrArg A ?_
  obtain ⟨e0, e1, e2⟩ := bias_index a.1 t τ hτ
  funext ax; apply Fin.ext
  match ax with
  | ⟨0, _⟩ =>
    show ((cfg0 a).win 2).index t (0 : Fin 3) * 1 + 1 * 0 = g.val
    rw [win2_index, e0, hg]; omega
  | ⟨1, _⟩ =>
    show ((cfg0 a).win 2).index t (1 : Fin 3) * 1 + 1 * 0 = 0
    rw [win2_index, e1]
  | ⟨2, _⟩ =>
    show ((cfg0 a).win 2).index t (2 : Fin 3) * 1024 + 1 * q.val = q.val
    rw [win2_index, e2]; omega

theorem tokens_arr (c : Dev nD) : (V m c (Pipeline.arrRef spec0 0) : Vec F S20480x1024 .bf16) = V m c main_v77 := rfl
theorem weights_arr (c : Dev nD) : (V m c (Pipeline.arrRef spec0 1) : Vec F S8x1024x1024 .bf16) = V m c main_v79 := rfl
theorem bias_arr (c : Dev nD) : (V m c (Pipeline.arrRef spec0 2) : Vec F S8x1x1024 .f32) = V m c main_v82 := rfl

end AnyInstance

section AtIdeal

variable (m : (ℓ : Loc nD τ sig) → Buf (Elt Ideal) ℓ)

abbrev xpad (c : Dev nD) : (⟨2, ![20480, 1024]⟩ : Shape).Idx → EReal := V m c main_v77
abbrev wmm (c : Dev nD) : (⟨3, ![8, 1024, 1024]⟩ : Shape).Idx → EReal := V m c main_v79
abbrev bmm (c : Dev nD) : (⟨3, ![8, 1, 1024]⟩ : Shape).Idx → EReal := V m c main_v82
abbrev oarr (hO : Ok m) (c : Dev nD) : (⟨2, ![20480, 1024]⟩ : Shape).Idx → EReal := outArr m hO c

abbrev gidw (τ : Fin 40) : BitVec 32 := tbl m 0 (ix1 τ)

theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into a zero accumulator at (p, q) is Σ_k a[p, k] · b[k, q]. -/
theorem mm_apply (a : FVec Ideal S512x1024 .bf16) (b : FVec Ideal S1024x1024 .bf16) (p : Fin 512) (q : Fin 1024) :
    matmul (F := Ideal) dot_S512x1024_S1024x1024_S512x1024_1_0_0_1_n_n none a b (constant (F := Ideal) S512x1024 .f32 0x00000000#32) (ix2 p q)
      = ∑ k : Fin 1024, a (ix2 p k) * b (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- The body's arithmetic at (p, q): Σ_k x[p, k] · w[0, k, q] + b[0, 0, q]. -/
theorem payload_apply (x0 : Vec Ideal S512x1024 .bf16) (x1 : Vec Ideal S1x1024x1024 .bf16) (x2 : Vec Ideal S1x1x1024 .f32)
    (p : Fin 512) (q : Fin 1024) :
    k0_pay1 x0 x1 x2 (ix2 p q)
      = (∑ k : Fin 1024, x0 (ix2 p k) * x1 (ix3 (0 : Fin 1) k q)) + x2 (ix3 (0 : Fin 1) (0 : Fin 1) q) := by
  unfold k0_pay1
  rw [addf_apply, mm_apply, broadcastTo_1b_ab_apply, shapeCast_1ab_ab_apply]
  refine congrArg (· + x2 (ix3 (0 : Fin 1) (0 : Fin 1) q)) (Finset.sum_congr rfl fun k _ => ?_)
  rw [shapeCast_self, shapeCast_1ab_ab_apply]

def expertOfWord (w : BitVec 32) : Fin 8 := ⟨min w.toNat 7, by omega⟩

def tileOfRow (r : Fin 20480) : Fin 40 := ⟨r.val / 512, by omega⟩

/-- Row r, feature o: the row against the matrix of the expert the table gives r's tile, plus its bias. -/
def rowValue (pf : pre0.Contents (Elt Ideal)) (X : Vec Ideal S20480x1024 .bf16) (W : Vec Ideal S8x1024x1024 .bf16)
    (B : Vec Ideal S8x1x1024 .f32) (r : Fin 20480) (o : Fin 1024) : Elt Ideal .f32 :=
  (∑ k : Fin 1024, X (ix2 r k) * W (ix3 (expertOfWord (pf 0 (ix1 (tileOfRow r)))) k o))
    + B (ix3 (expertOfWord (pf 0 (ix1 (tileOfRow r)))) (0 : Fin 1) o)

def resultArr (pf : pre0.Contents (Elt Ideal)) (X : Vec Ideal S20480x1024 .bf16) (W : Vec Ideal S8x1024x1024 .bf16)
    (B : Vec Ideal S8x1x1024 .f32) : Vec Ideal S20480x1024 .f32 :=
  fun i => rowValue pf X W B ⟨(i 0).val, idx2_lt0 i⟩ ⟨(i 1).val, idx2_lt1 i⟩

theorem payload_blocks (a : (pcfg0 (F := Ideal)).Adm) (pf : pre0.Contents (Elt Ideal)) (hpf : a.1 = pf) (t : Fin (cfg0 a).N)
    (X : Vec Ideal S20480x1024 .bf16) (W : Vec Ideal S8x1024x1024 .bf16) (B : Vec Ideal S8x1x1024 .f32)
    (p : Fin 512) (q : Fin 1024) (r : Fin 20480) (hr : r.val = t.val * 512 + p.val) :
    k0_pay1 ((((cfg0 a).win 0).blk t).view.read (Elt Ideal) X) ((((cfg0 a).win 1).blk t).view.read (Elt Ideal) W)
        ((((cfg0 a).win 2).blk t).view.read (Elt Ideal) B) (ix2 p q)
      = rowValue pf X W B r q := by
  subst hpf
  have ht : t.val < 40 := t.isLt
  have hτ : (tileOfRow r).val = t.val := by show r.val / 512 = t.val; have := p.isLt; omega
  have hw := word_lt a t (tileOfRow r) hτ
  have hg : ((a.1 0 (ix1 (tileOfRow r)) : BitVec 32)).toNat = (expertOfWord (a.1 0 (ix1 (tileOfRow r)))).val := by
    show _ = min _ 7; omega
  refine (payload_apply _ _ _ p q).trans ?_
  unfold rowValue
  rw [bias_read a t B q _ (tileOfRow r) hτ hg]
  refine congrArg (· + B (ix3 (expertOfWord (a.1 0 (ix1 (tileOfRow r)))) (0 : Fin 1) q)) (Finset.sum_congr rfl fun k _ => ?_)
  rw [tokens_read a t X p k r hr, weights_read a t W k q _ (tileOfRow r) hτ hg]

abbrev regionValue (c : Dev nD) : Vec Ideal S20480x1024 .f32 :=
  resultArr (tbl m) (V m c (Pipeline.arrRef spec0 0)) (V m c (Pipeline.arrRef spec0 1)) (V m c (Pipeline.arrRef spec0 2))

/-- What point t writes back is block t of that one function. -/
theorem flushed_region (hO : Ok m) (c : Dev nD) (t : Fin (cfgM m hO).N) (_ : ((cfgM m hO).win 3).flush t = true) :
    (dats m hO 0 c).flushed 3 t = (((cfgM m hO).win 3).blk t).view.read (Elt Ideal) (regionValue m c) := by
  show ((cfgM m hO).win 3).cut ((cfgM m hO).grid.coords t) ((dats m hO 0 c).after 3 t) = _
  rw [after0_3, point_leaves]
  refine funext fun (y : S512x1024.Idx) => ?_
  obtain ⟨p, q, rfl⟩ : ∃ (p : Fin 512) (q : Fin 1024), y = ix2 p q := ⟨y 0, y 1, eq_ix2 y⟩
  have ht : t.val < 40 := t.isLt
  refine (payload_blocks (adm m hO) (tbl m) rfl t (V m c (Pipeline.arrRef spec0 0)) (V m c (Pipeline.arrRef spec0 1))
    (V m c (Pipeline.arrRef spec0 2)) p q ⟨t.val * 512 + p.val, by have := p.isLt; omega⟩ rfl).trans ?_
  exact (result_read (adm m hO) t (regionValue m c) p q ⟨t.val * 512 + p.val, by have := p.isLt; omega⟩ rfl).symm

theorem mem_result_block (a : (pcfg0 (F := Ideal)).Adm) (t : Fin (cfg0 a).N) (i : S20480x1024.Idx) :
    i ∈ (((cfg0 a).win 3).blk t).view.set ↔ ∀ ax : Fin 2, ((cfg0 a).win 3).index t ax * S512x1024.size ax ≤ (i ax).val
      ∧ (i ax).val < ((cfg0 a).win 3).index t ax * S512x1024.size ax + S512x1024.size ax :=
  (Finset.ext_iff.mp (View.set_slice_whole main_v83 (((cfg0 a).win 3).rect t)) i).trans Rect.mem_set_unit

/-- Row r lies in the block of point r / 512. -/
theorem region_cover (hO : Ok m) (i : S20480x1024.Idx) :
    ∃ t : Fin (cfgM m hO).N, ((cfgM m hO).win 3).flush t = true ∧ i ∈ (((cfgM m hO).win 3).blk t).view.set := by
  have hi0 := idx2_lt0 i
  have hi1 := idx2_lt1 i
  have hlt : (i 0).val / 512 < 40 := by omega
  refine ⟨⟨(i 0).val / 512, hlt⟩, flush0_3 (adm m hO) _, ?_⟩
  rw [mem_result_block]
  obtain ⟨e0, e1⟩ := result_index ⟨(i 0).val / 512, hlt⟩
  intro ax
  match ax with
  | ⟨0, _⟩ =>
    show ((cfgM m hO).win 3).index ⟨(i 0).val / 512, hlt⟩ (0 : Fin 2) * 512 ≤ (i 0).val
      ∧ (i 0).val < ((cfgM m hO).win 3).index ⟨(i 0).val / 512, hlt⟩ (0 : Fin 2) * 512 + 512
    rw [win3_index, e0]; dsimp only; omega
  | ⟨1, _⟩ =>
    show ((cfgM m hO).win 3).index ⟨(i 0).val / 512, hlt⟩ (1 : Fin 2) * 1024 ≤ (i 1).val
      ∧ (i 1).val < ((cfgM m hO).win 3).index ⟨(i 0).val / 512, hlt⟩ (1 : Fin 2) * 1024 + 1024
    rw [win3_index, e1]; omega

theorem region_final (hO : Ok m) (c : Dev nD) : (dats m hO 0 c).arrAt 3 (cfgM m hO).N = regionValue m c :=
  (dats m hO 0 c).arrAt_eq_of_cover 3 (regionValue m c) (flushed_region m hO c) (region_cover m hO)

/-- The product array at row r, feature o, for the expert g of r's tile. -/
theorem out_apply (hO : Ok m) (c : Dev nD) (r : Fin 20480) (o : Fin 1024) (g : Fin 8)
    (hg : (gidw m (⟨r.val / 512, by omega⟩ : Fin 40)).toNat = g.val) :
    oarr m hO c (ix2 r o)
      = (∑ k : Fin 1024, xpad m c (ix2 r k) * wmm m c (ix3 g k o)) + bmm m c (ix3 g (0 : Fin 1) o) := by
  have hg' : ((tbl m 0 (ix1 (tileOfRow r)) : BitVec 32)).toNat = g.val := hg
  have eg : expertOfWord (tbl m 0 (ix1 (tileOfRow r))) = g :=
    Fin.ext (by show min _ 7 = g.val; have := g.isLt; omega)
  refine (congrFun (region_final m hO c) (ix2 r o)).trans ?_
  show rowValue (tbl m) (V m c (Pipeline.arrRef spec0 0)) (V m c (Pipeline.arrRef spec0 1)) (V m c (Pipeline.arrRef spec0 2)) r o = _
  unfold rowValue
  subst eg
  exact congrArg₂ (· + ·)
    (Finset.sum_congr rfl fun k _ => congrArg₂ (· * ·) (congrFun (tokens_arr m c) (ix2 r k)) (congrFun (weights_arr m c) (ix3 _ k o)))
    (congrFun (bias_arr m c) (ix3 _ (0 : Fin 1) o))

end AtIdeal

end Cert.KernelIdeal.Region

end
-- ==== Proof.Ids.lean ====
/- A token's expert id, as a word and as a number. -/
import proofs.«407576_j40785009442943_3_alg».proof.Proof.HostVals
import Idealize.ShloMosaic.Lib.ValueIdx
import Idealize.ShloMosaic.Lib.SortFacts

noncomputable section

namespace Cert.KernelIdeal.Ids

open Cert.KernelIdeal Cert.KernelIdeal.Gen Cert.KernelIdeal.HostVals
open Idealize.ShloMosaic Idealize.ShloMosaic.ValueIdx

theorem ofFin_eq_ix1 {n : Nat} (k : Fin n) : Shape.Idx.ofFin k = ix1 k := (Shape.Idx.eq_ofFin (ix1 k)).symm

variable {F : FTy → Type} [FloatOps F]
variable (xs : Args F)

def idw (t : Fin 16384) : BitVec 32 := val_main_v1 xs (ix1 t)

def key (t : Fin 16384) : ℕ := (idw xs t).toNat

/-- Every id is one of the eight experts. -/
def InRange : Prop := ∀ t : Fin 16384, key xs t < 8

end Cert.KernelIdeal.Ids

end
-- ==== Proof.Sort.lean ====
/- Sorting the tokens by expert id: the order σ is a permutation along which the ids do not decrease. -/
import proofs.«407576_j40785009442943_3_alg».proof.Proof.Ids
import Idealize.ShloMosaic.Lib.SortFacts
import Idealize.ShloMosaic.Lib.StableHlo.Predicate

noncomputable section

namespace Cert.KernelIdeal.Sort

open Cert.KernelIdeal Cert.KernelIdeal.Gen Cert.KernelIdeal.HostVals Cert.KernelIdeal.Ids
open Idealize.ShloMosaic Idealize.ShloMosaic.ValueIdx

variable {F : FTy → Type} [FloatOps F]
variable (xs : Args F)

/-- σ j: the token at sorted position j. -/
def sg : Fin 16384 → Fin 16384 :=
  sortedFrom fun k k' =>
    comparator_i32_i32_d0 (idw xs k, BitVec.ofNat 32 k.val) (idw xs k', BitVec.ofNat 32 k'.val) == 1#1

theorem sg_bijective : Function.Bijective (sg xs) := by
  unfold sg
  exact ⟨sortedFrom_injective _, sortedFrom_surjective _⟩

theorem before_eq (l r : BitVec 32 × BitVec 32) :
    (comparator_i32_i32_d0 l r == 1#1) = decide (l.1.toInt < r.1.toInt) := by
  unfold comparator_i32_i32_d0 IntOp.cmpi
  simp only [BitVec.slt]
  by_cases h : l.1.toInt < r.1.toInt
  · simp [h]
  · simp [h]

theorem key_le_of_not_before (hk : InRange xs) (a b : Fin 16384)
    (h : (comparator_i32_i32_d0 (idw xs b, BitVec.ofNat 32 b.val) (idw xs a, BitVec.ofNat 32 a.val) == 1#1) = false) :
    key xs a ≤ key xs b := by
  rw [before_eq, decide_eq_false_iff_not] at h
  dsimp only at h
  have ha := hk a
  have hb := hk b
  unfold key at ha hb ⊢
  rw [StableHlo.Predicate.toInt_eq_toNat_of_lt (by omega), StableHlo.Predicate.toInt_eq_toNat_of_lt (by omega)] at h
  omega

/-- A position is never placed before one with a smaller id, so ids do not decrease along σ. -/
theorem sg_mono (hk : InRange xs) (i j : Fin 16384) (hij : i ≤ j) :
    key xs (sg xs i) ≤ key xs (sg xs j) := by
  rcases lt_or_eq_of_le hij with h | h
  ·

    have hn := sortedFrom_noInversion
      (fun k k' : Fin 16384 => comparator_i32_i32_d0 (idw xs k, BitVec.ofNat 32 k.val) (idw xs k', BitVec.ofNat 32 k'.val) == 1#1)
      (fun k k' : Fin 16384 => comparator_i32_i32_d0 (idw xs k, BitVec.ofNat 32 k.val) (idw xs k', BitVec.ofNat 32 k'.val) == 1#1)
      (by intro a b; simp only [before_eq, decide_eq_true_eq, decide_eq_false_iff_not]; omega)
      (fun _ _ hab => hab)
      (by intro a b c; simp only [before_eq, decide_eq_false_iff_not]; omega)
      i j h
    unfold sg
    exact key_le_of_not_before xs hk _ _ hn
  · subst h; exact le_rfl

theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

theorem sort2_snd_apply {α β : Type} (cmp : α × β → α × β → BitVec 1) (x : S16384.Idx → α) (y : S16384.Idx → β) (j : Fin 16384) :
    (Host.sort2 S16384 0 cmp x y).2 (ix1 j)
      = y (ix1 (sortedFrom (fun k k' : Fin 16384 => cmp (x (ix1 k), y (ix1 k)) (x (ix1 k'), y (ix1 k')) == 1#1) j)) := by
  have h := sort2_snd_rank1 (n := 16384) cmp x y (ix1 j)
  simp only [ofFin_eq_ix1] at h
  exact h

theorem iota_ix1 (k : Fin 16384) : (iotaInDim S16384 32 0 : IVec S16384 32) (ix1 k) = BitVec.ofNat 32 k.val := rfl

/-- The sorting order's entry j spells σ j. -/
theorem v2_apply (j : Fin 16384) :
    val_main_v2 xs (ix1 j) = BitVec.ofNat 32 (sg xs j).val := by
  rw [val_main_v2]
  beta_reduce
  rw [sort2_snd_apply, val_main_call0_v0]
  simp only [iota_ix1]
  unfold sg idw
  rfl

theorem cmpi_at {s : Shape} {w : Nat} (p : CmpIPredicate) (x y : IVec s w) (i : s.Idx) :
    cmpi p x y i = IntOp.cmpi p (x i) (y i) := rfl

theorem slt_zero_of_small (m : ℕ) (hm : m < 2 ^ 31) : IntOp.cmpi .slt (BitVec.ofNat 32 m) 0#32 = 0#1 := by
  apply eq_zero_of_ne_one
  intro h
  have h' := (StableHlo.Predicate.slt_iff_toNat (a := BitVec.ofNat 32 m) (b := 0#32)
    (by rw [BitVec.toNat_ofNat]; omega) (by decide)).mp h
  exact Nat.not_lt_zero _ h'

theorem v8_apply (j : Fin 16384) :
    val_main_v8 xs (StableHlo.Predicate.ixP j) = BitVec.ofNat 32 (sg xs j).val := by
  have hlt : (sg xs j).val < 16384 := (sg xs j).isLt
  have h3 : val_main_v3 xs (ix1 j) = 0#32 := by
    rw [val_main_v3, val_main_c]; rfl
  have h4 : val_main_v4 xs (ix1 j) = 0#1 := by
    rw [val_main_v4, cmpi_at, v2_apply, h3]
    exact slt_zero_of_small _ (by omega)
  have h7 : val_main_v7 xs (ix1 j) = BitVec.ofNat 32 (sg xs j).val := by
    rw [val_main_v7, select_apply, h4, select_zero, v2_apply]
  rw [val_main_v8, StableHlo.Predicate.bcast_col1, ofFin_eq_ix1, h7]

/-- The sorted ids: entry j is the id of token σ j. -/
theorem v9_apply (j : Fin 16384) :
    val_main_v9 xs (ix1 j) = idw xs (sg xs j) := by
  have hlt : (sg xs j).val < 16384 := (sg xs j).isLt

  have hg := StableHlo.Predicate.gather_take gather_S16384_S16384x1_S16384_n_0_n_n_0_1_1 rfl rfl rfl rfl
    (val_main_v1 xs) (val_main_v8 xs) j (by decide)
  rw [ofFin_eq_ix1, ofFin_eq_ix1] at hg
  rw [val_main_v9]
  beta_reduce
  rw [hg]
  unfold idw
  refine congrArg (val_main_v1 xs) (congrArg ix1 (Fin.ext ?_))
  show min (val_main_v8 xs (StableHlo.Predicate.ixP j)).toInt.toNat (16384 - 1) = (sg xs j).val
  rw [v8_apply, StableHlo.Predicate.toInt_ofNat_small _ (by omega), Int.toNat_natCast]
  omega

end Cert.KernelIdeal.Sort

end
-- ==== Proof.LibGroupedLayout.lean ====
/- Laying n keyed items out group by group, each group padded to a multiple of TM: counts, starts, padded offsets, destinations, and the group that owns a tile. -/
import Mathlib.Algebra.BigOperators.Group.Finset.Basic
import Mathlib.Algebra.Order.BigOperators.Group.Finset
import Mathlib.Data.Fintype.Card
import Mathlib.Data.Fintype.BigOperators
import Mathlib.Data.Finset.Interval
import Mathlib.Order.Interval.Finset.Nat
import Mathlib.Order.Interval.Finset.Fin
import Mathlib.Algebra.BigOperators.Ring.Finset
import Mathlib.Algebra.BigOperators.Group.Finset.Piecewise
import Mathlib.Tactic

namespace GroupedLayout

variable {n : ℕ} (E TM : ℕ) (key : Fin n → ℕ) (σ : Fin n → Fin n)

def cnt (e : ℕ) : ℕ := (Finset.univ.filter fun t : Fin n => key t = e).card

def start (e : ℕ) : ℕ := ∑ e' ∈ Finset.range e, cnt key e'

def pcnt (e : ℕ) : ℕ := (cnt key e + TM - 1) / TM * TM

def off (e : ℕ) : ℕ := ∑ e' ∈ Finset.range e, pcnt TM key e'

def dest (j : Fin n) : ℕ := off TM key (key (σ j)) + (j.val - start key (key (σ j)))

def tileGroup (τ : ℕ) : ℕ := ((Finset.Icc 1 (E - 1)).filter fun i => off TM key i ≤ τ * TM).card

theorem cnt_le (e : ℕ) : cnt key e ≤ n := by
  unfold cnt
  calc (Finset.univ.filter fun t : Fin n => key t = e).card
      ≤ (Finset.univ : Finset (Fin n)).card := Finset.card_filter_le _ _
    _ = n := by simp

private theorem start_eq_card (e : ℕ) :
    start key e = (Finset.univ.filter fun t : Fin n => key t < e).card := by
  unfold start cnt
  have H : ((Finset.univ.filter fun t : Fin n => key t < e : Finset (Fin n)) : Set (Fin n)).MapsTo key
      (Finset.range e) := by
    intro t ht
    simpa using ht
  rw [Finset.card_eq_sum_card_fiberwise H]
  refine Finset.sum_congr rfl ?_
  intro e' he'
  have he'' : e' < e := Finset.mem_range.mp he'
  refine congrArg Finset.card ?_
  ext t
  simp only [Finset.mem_filter, Finset.mem_univ, true_and]
  constructor
  · intro h
    exact ⟨by omega, h⟩
  · intro h
    exact h.2

theorem start_top (hkey : ∀ t, key t < E) : start key E = n := by
  rw [start_eq_card]
  have : (Finset.univ.filter fun t : Fin n => key t < E) = Finset.univ := by
    ext t
    simp [hkey t]
  rw [this]
  simp

theorem off_mono {a b : ℕ} (h : a ≤ b) : off TM key a ≤ off TM key b := by
  unfold off
  exact Finset.sum_le_sum_of_subset (Finset.range_mono h)

theorem off_succ (e : ℕ) : off TM key (e + 1) = off TM key e + pcnt TM key e := by
  unfold off
  exact Finset.sum_range_succ _ _

theorem start_succ (e : ℕ) : start key (e + 1) = start key e + cnt key e := by
  unfold start
  exact Finset.sum_range_succ _ _

theorem dvd_off (e : ℕ) : TM ∣ off TM key e := by
  unfold off
  refine Finset.dvd_sum ?_
  intro e' _
  unfold pcnt
  exact dvd_mul_left _ _

theorem cnt_le_pcnt (hTM : 0 < TM) (e : ℕ) : cnt key e ≤ pcnt TM key e := by
  unfold pcnt
  have h1 : TM * ((cnt key e + TM - 1) / TM) + (cnt key e + TM - 1) % TM = cnt key e + TM - 1 :=
    Nat.div_add_mod _ _
  have h2 : (cnt key e + TM - 1) % TM < TM := Nat.mod_lt _ hTM
  rw [Nat.mul_comm]
  omega

private theorem pcnt_le (hTM : 0 < TM) (e : ℕ) : pcnt TM key e ≤ cnt key e + (TM - 1) := by
  unfold pcnt
  have h1 : (cnt key e + TM - 1) / TM * TM ≤ cnt key e + TM - 1 := Nat.div_mul_le_self _ _
  omega

theorem off_le (hTM : 0 < TM) (hkey : ∀ t, key t < E) : off TM key E ≤ n + E * (TM - 1) := by
  have h1 : off TM key E ≤ ∑ e' ∈ Finset.range E, (cnt key e' + (TM - 1)) := by
    unfold off
    exact Finset.sum_le_sum fun e' _ => pcnt_le TM key hTM e'
  have h2 : ∑ e' ∈ Finset.range E, (cnt key e' + (TM - 1)) = start key E + E * (TM - 1) := by
    rw [Finset.sum_add_distrib, Finset.sum_const, Finset.card_range, smul_eq_mul]
    rfl
  rw [h2, start_top E key hkey] at h1
  exact h1

private theorem mem_iff_lt_card_of_lower (S : Finset (Fin n))
    (hS : ∀ i j : Fin n, i ≤ j → j ∈ S → i ∈ S) (j : Fin n) : j ∈ S ↔ j.val < S.card := by
  constructor
  · intro hj
    have hsub : Finset.Iic j ⊆ S := by
      intro i hi
      exact hS i j (Finset.mem_Iic.mp hi) hj
    have := Finset.card_le_card hsub
    rw [Fin.card_Iic] at this
    omega
  · intro hlt
    by_contra hj
    have hsub : S ⊆ Finset.Iio j := by
      intro i hi
      rw [Finset.mem_Iio]
      by_contra hnot
      exact hj (hS j i (not_lt.mp hnot) hi)
    have := Finset.card_le_card hsub
    rw [Fin.card_Iio] at this
    omega

/-- Along a bijection that sorts the keys, position j's key is below e exactly when j is before the start of group e. -/
private theorem key_lt_iff (hσ : Function.Bijective σ)
    (hmono : ∀ i j : Fin n, i ≤ j → key (σ i) ≤ key (σ j)) (e : ℕ) (j : Fin n) :
    key (σ j) < e ↔ j.val < start key e := by
  have hcard : (Finset.univ.filter fun i : Fin n => key (σ i) < e).card = start key e := by
    rw [start_eq_card, Finset.card_filter, Finset.card_filter]
    exact hσ.sum_comp (fun t => if key t < e then 1 else 0)
  have hlow : ∀ a b : Fin n, a ≤ b → b ∈ (Finset.univ.filter fun i : Fin n => key (σ i) < e) →
      a ∈ (Finset.univ.filter fun i : Fin n => key (σ i) < e) := by
    intro a b hab hb
    simp only [Finset.mem_filter, Finset.mem_univ, true_and] at hb ⊢
    exact lt_of_le_of_lt (hmono a b hab) hb
  have := mem_iff_lt_card_of_lower _ hlow j
  rw [hcard] at this
  rw [← this]
  simp

theorem start_le (hσ : Function.Bijective σ) (hmono : ∀ i j : Fin n, i ≤ j → key (σ i) ≤ key (σ j)) (j : Fin n) :
    start key (key (σ j)) ≤ j.val := by
  have h := key_lt_iff key σ hσ hmono (key (σ j)) j
  by_contra hnot
  exact lt_irrefl _ (h.mpr (not_le.mp hnot))

theorem lt_start_add_cnt (hσ : Function.Bijective σ) (hmono : ∀ i j : Fin n, i ≤ j → key (σ i) ≤ key (σ j)) (j : Fin n) :
    j.val < start key (key (σ j)) + cnt key (key (σ j)) := by
  rw [← start_succ]
  exact (key_lt_iff key σ hσ hmono (key (σ j) + 1) j).mp (Nat.lt_succ_self _)

theorem off_le_dest (j : Fin n) : off TM key (key (σ j)) ≤ dest TM key σ j := by
  unfold dest
  exact Nat.le_add_right _ _

theorem dest_lt_off_succ (hTM : 0 < TM) (hσ : Function.Bijective σ)
    (hmono : ∀ i j : Fin n, i ≤ j → key (σ i) ≤ key (σ j)) (j : Fin n) :
    dest TM key σ j < off TM key (key (σ j) + 1) := by
  have h1 := start_le key σ hσ hmono j
  have h2 := lt_start_add_cnt key σ hσ hmono j
  have h3 := cnt_le_pcnt TM key hTM (key (σ j))
  rw [off_succ]
  unfold dest
  omega

theorem dest_lt (hTM : 0 < TM) (hkey : ∀ t, key t < E) (hσ : Function.Bijective σ)
    (hmono : ∀ i j : Fin n, i ≤ j → key (σ i) ≤ key (σ j)) (j : Fin n) :
    dest TM key σ j < off TM key E :=
  lt_of_lt_of_le (dest_lt_off_succ TM key σ hTM hσ hmono j) (off_mono TM key (hkey (σ j)))

/-- Inside a group ranks differ; across groups the padded ranges are disjoint. -/
theorem dest_injective (hTM : 0 < TM) (hσ : Function.Bijective σ)
    (hmono : ∀ i j : Fin n, i ≤ j → key (σ i) ≤ key (σ j)) : Function.Injective (dest TM key σ) := by

  have hsep : ∀ i j : Fin n, key (σ i) < key (σ j) → dest TM key σ i < dest TM key σ j := by
    intro i j hlt
    calc dest TM key σ i < off TM key (key (σ i) + 1) := dest_lt_off_succ TM key σ hTM hσ hmono i
      _ ≤ off TM key (key (σ j)) := off_mono TM key hlt
      _ ≤ dest TM key σ j := off_le_dest TM key σ j
  intro i j hij
  have hkeyeq : key (σ i) = key (σ j) := by
    rcases lt_trichotomy (key (σ i)) (key (σ j)) with h | h | h
    · exact absurd hij (ne_of_lt (hsep i j h))
    · exact h
    · exact absurd hij.symm (ne_of_lt (hsep j i h))

  have hi := start_le key σ hσ hmono i
  have hj := start_le key σ hσ hmono j
  unfold dest at hij
  rw [hkeyeq] at hij hi
  apply Fin.ext
  omega

/-- The tile of dest j starts inside the padded range of j's group, so exactly that group's number of offsets lie at or below it. -/
theorem tileGroup_dest (hTM : 0 < TM) (hkey : ∀ t, key t < E) (hσ : Function.Bijective σ)
    (hmono : ∀ i j : Fin n, i ≤ j → key (σ i) ≤ key (σ j)) (j : Fin n) :
    tileGroup E TM key (dest TM key σ j / TM) = key (σ j) := by
  have hE : key (σ j) < E := hkey (σ j)
  have hlo := off_le_dest TM key σ j
  have hhi := dest_lt_off_succ TM key σ hTM hσ hmono j
  have htile : dest TM key σ j / TM * TM ≤ dest TM key σ j := Nat.div_mul_le_self _ _

  have hset : ((Finset.Icc 1 (E - 1)).filter fun i => off TM key i ≤ dest TM key σ j / TM * TM)
      = Finset.Icc 1 (key (σ j)) := by
    ext i
    simp only [Finset.mem_filter, Finset.mem_Icc]
    constructor
    · rintro ⟨⟨h1, _⟩, h3⟩
      refine ⟨h1, ?_⟩
      by_contra hnot
      have : off TM key (key (σ j) + 1) ≤ off TM key i := off_mono TM key (by omega)
      omega
    · rintro ⟨h1, h2⟩
      refine ⟨⟨h1, by omega⟩, ?_⟩

      obtain ⟨k, hk⟩ := dvd_off TM key i
      have hle : off TM key i ≤ dest TM key σ j := le_trans (off_mono TM key h2) hlo
      rw [hk, Nat.mul_comm TM k] at hle ⊢
      exact Nat.mul_le_mul_right TM ((Nat.le_div_iff_mul_le hTM).mpr hle)
  unfold tileGroup
  rw [hset, Nat.card_Icc]
  omega

theorem tileGroup_le (τ : ℕ) : tileGroup E TM key τ ≤ E - 1 := by
  unfold tileGroup
  calc ((Finset.Icc 1 (E - 1)).filter fun i => off TM key i ≤ τ * TM).card
      ≤ (Finset.Icc 1 (E - 1)).card := Finset.card_filter_le _ _
    _ = E - 1 := by rw [Nat.card_Icc]; omega

end GroupedLayout
-- ==== Proof.Counts.lean ====
/- Per-expert counts, their round-up to multiples of 512, and the running sums of both, as numbers. -/
import proofs.«407576_j40785009442943_3_alg».proof.Proof.Ids
import proofs.«407576_j40785009442943_3_alg».proof.Proof.LibGroupedLayout
import Idealize.ShloMosaic.Lib.StableHlo.Predicate
import Idealize.ShloMosaic.Lib.Pipeline.Value

noncomputable section

namespace Cert.KernelIdeal.Counts

open Cert.KernelIdeal Cert.KernelIdeal.Gen Cert.KernelIdeal.HostVals Cert.KernelIdeal.Ids
open Idealize.ShloMosaic Idealize.ShloMosaic.ValueIdx
open Idealize.ShloMosaic.StableHlo.Predicate

variable {F : FTy → Type} [FloatOps F]
variable (xs : Args F)

theorem v15_apply (p : Fin 16384) (e : Fin 8) :
    val_main_v15 xs (ij p e) = IntOp.cmpi .eq (idw xs p) (BitVec.ofNat 32 e.val) := by
  rw [val_main_v15, val_main_v13, val_main_v14, val_main_v10, val_main_v12, val_main_v11]
  show IntOp.cmpi .eq _ _ = _
  rw [bcast_rows, bcast_cols, iota_apply, ofFin_eq_ix1]
  rfl

theorem word_eq_ofNat_iff (a : BitVec 32) (e : Fin 8) : a = BitVec.ofNat 32 e.val ↔ a.toNat = e.val := by
  constructor
  · intro h; rw [h, BitVec.toNat_ofNat]; exact Nat.mod_eq_of_lt (by have := e.isLt; omega)
  · intro h; apply BitVec.eq_of_toNat_eq; rw [h, BitVec.toNat_ofNat]; exact (Nat.mod_eq_of_lt (by have := e.isLt; omega)).symm

/-- A column sum of the one-hot matrix counts the tokens of expert e. -/
theorem v17_toNat' (e : Fin 8) :
    (val_main_v17 xs (ix1 e)).toNat = GroupedLayout.cnt (key xs) e.val := by
  rw [val_main_v17, val_main_v16, val_main_c_1]
  refine (toNat_reduce_count_rows (n := 16384) (m := 8) (by norm_num) (val_main_v15 xs) natLt_1_32
    reducesTo_S16384x8_S8_d0 h_S_ (ix1 e)).trans ?_
  unfold GroupedLayout.cnt
  refine congrArg Finset.card (Finset.filter_congr fun p _ => ?_)
  show val_main_v15 xs (ij p e) = 1#1 ↔ _
  rw [v15_apply, cmpi_eq_iff, word_eq_ofNat_iff]
  rfl

def sgnW (x : BitVec 32) : BitVec 32 := if x = 0 then 0 else if x.msb then -1 else 1

def floorDivW (x : BitVec 32) : BitVec 32 :=
  Scalar.select (IntOp.andi (IntOp.cmpi .ne (sgnW x) (sgnW 512#32)) (IntOp.cmpi .ne (IntOp.remsi .host x 512#32) 0#32))
    (IntOp.subi (IntOp.divsi .host x 512#32) 1#32) (IntOp.divsi .host x 512#32)

theorem sgnW_pos (x : BitVec 32) (h0 : 0 < x.toNat) (h1 : x.toNat < 2 ^ 31) : sgnW x = 1#32 := by
  have hne : x ≠ 0 := by
    intro h; rw [h] at h0; exact absurd h0 (by decide)
  have hm : x.msb = false := BitVec.msb_eq_false_iff_two_mul_lt.mpr (by omega)
  unfold sgnW
  rw [if_neg hne, hm]
  rfl

/-- The signed floor division by 512, on a positive word below 2³¹, is the quotient. -/
theorem floorDivW_toNat (x : BitVec 32) (h0 : 0 < x.toNat) (h1 : x.toNat < 2 ^ 31) : (floorDivW x).toNat = x.toNat / 512 := by
  have hs : sgnW x = 1#32 := sgnW_pos x h0 h1
  have hs' : sgnW 512#32 = 1#32 := by decide
  have hcorner : ¬ IntOp.SDivCorner x 512#32 := by
    intro hc; rcases hc with hc | ⟨_, hc⟩ <;> exact absurd hc (by decide)
  have hm : x.msb = false := BitVec.msb_eq_false_iff_two_mul_lt.mpr (by omega)
  unfold floorDivW
  rw [hs, hs', show IntOp.cmpi .ne (1#32) (1#32) = 0#1 from by decide]
  rw [show ∀ y : BitVec 1, IntOp.andi 0#1 y = 0#1 from fun y => BitVec.zero_and]
  rw [show ∀ a b : BitVec 32, Scalar.select 0#1 a b = b from fun a b => if_neg (by decide)]
  simp only [IntOp.divsi, if_neg hcorner, BitVec.sdiv_eq, hm, show (512#32 : BitVec 32).msb = false from by decide, BitVec.udiv_eq,
    BitVec.toNat_udiv, BitVec.toNat_ofNat]

theorem v21_apply (e : Fin 8) :
    val_main_v21 xs (ix1 e) = val_main_v17 xs (ix1 e) + 512#32 - 1#32 := by
  rw [val_main_v21, val_main_v19, val_main_v18, val_main_v20, val_main_c_2, val_main_c_3]
  rfl

theorem v22_apply (e : Fin 8) :
    val_main_v22 xs (ix1 e) = floorDivW (val_main_v21 xs (ix1 e)) := by
  rw [val_main_v22, val_main_call1_v11, val_main_call1_v13, val_main_call1_v2, val_main_call1_v6,
    val_main_call1_v10, val_main_call1_v3, val_main_call1_v5, val_main_call1_v4, val_main_call1_v8,
    val_main_call1_v9, val_main_call1_v7, val_main_call1_v12, val_main_call1_v1, val_main_call1_v0,
    val_main_call1_c, val_main_call1_c_0, val_main_c_4]
  rfl

theorem v24_apply (e : Fin 8) :
    val_main_v24 xs (ix1 e) = val_main_v22 xs (ix1 e) * 512#32 := by
  rw [val_main_v24, val_main_v23, val_main_c_5]
  rfl

theorem cnt_le' (e : ℕ) : GroupedLayout.cnt (key xs) e ≤ 16384 := GroupedLayout.cnt_le _ e

theorem v21_toNat (e : Fin 8) :
    (val_main_v21 xs (ix1 e)).toNat = GroupedLayout.cnt (key xs) e.val + 511 := by
  have hc := cnt_le' xs e.val
  rw [v21_apply, BitVec.toNat_sub, BitVec.toNat_add, v17_toNat']
  simp only [BitVec.toNat_ofNat]
  omega

theorem v22_toNat (e : Fin 8) :
    (val_main_v22 xs (ix1 e)).toNat = (GroupedLayout.cnt (key xs) e.val + 511) / 512 := by
  have hc := cnt_le' xs e.val
  have h := v21_toNat xs e
  rw [v22_apply, floorDivW_toNat _ (by omega) (by omega), h]

/-- The padded count: the count rounded up to a multiple of 512. -/
theorem v24_toNat' (e : Fin 8) :
    (val_main_v24 xs (ix1 e)).toNat = GroupedLayout.pcnt 512 (key xs) e.val := by
  have hc := cnt_le' xs e.val
  have h := v22_toNat xs e
  unfold GroupedLayout.pcnt
  rw [v24_apply, BitVec.toNat_mul, h]
  simp only [BitVec.toNat_ofNat]
  have : (GroupedLayout.cnt (key xs) e.val + 511) / 512 ≤ 33 := by omega
  rw [show GroupedLayout.cnt (key xs) e.val + 512 - 1 = GroupedLayout.cnt (key xs) e.val + 511 from by omega]
  omega

theorem toNat_foldl_add {ι : Type} (g : ι → BitVec 32) : ∀ (l : List ι) (a : BitVec 32),
    a.toNat + (l.map fun n => (g n).toNat).sum < 2 ^ 32 →
    (l.foldl (fun r n => IntOp.addi r (g n)) a).toNat = a.toNat + (l.map fun n => (g n).toNat).sum
  | [], a, _ => by simp
  | n :: l, a, h => by
    simp only [List.map_cons, List.sum_cons] at h
    have e1 : (IntOp.addi a (g n)).toNat = a.toNat + (g n).toNat := by
      show (a + g n).toNat = _
      rw [BitVec.toNat_add, Nat.mod_eq_of_lt (by omega)]
    rw [List.foldl_cons, toNat_foldl_add g l _ (by rw [e1]; omega), e1]
    simp only [List.map_cons, List.sum_cons]; omega

def winW (v : S8.Idx → BitVec 32) (e n : Fin 8) : BitVec 32 :=
  if h : 7 ≤ e.val + n.val then v (ix1 ⟨e.val + n.val - 7, by omega⟩) else 0#32

theorem reduceWindow8_apply (v : S8.Idx → BitVec 32) (init : S_.Idx → BitVec 32) (h0 : init (Shape.Idx.first h_S_) = 0#32) (e : Fin 8) :
    Host.reduceWindow IntOp.addi ![8] ![1] ![7] ![0] v init reduceWindows_S8_S8_w8s1p7_0 h_S_ (ix1 e)
      = (List.finRange 8).foldl (fun r n => IntOp.addi r (winW v e n)) 0#32 := by
  unfold Host.reduceWindow
  simp only [h0]
  show (List.finRange 8).foldl _ 0#32 = _
  refine congrArg (fun f => List.foldl f 0#32 (List.finRange 8)) ?_
  funext r n
  refine congrArg (IntOp.addi r) ?_
  have hn : ((⟨1, ![8]⟩ : Shape).rowMajor.symm n 0).val = n.val := by
    have := Shape.rowMajor_val_one ((⟨1, ![8]⟩ : Shape).rowMajor.symm n)
    rw [Equiv.apply_symm_apply] at this; exact this.symm
  have hn8 : n.val < 8 := n.isLt
  have he8 : e.val < 8 := e.isLt
  unfold winW
  split_ifs with h1 h2 h2
  · refine congrArg v ?_
    funext a
    match a with
    | ⟨0, _⟩ =>
      apply Fin.ext
      show e.val * 1 + ((⟨1, ![8]⟩ : Shape).rowMajor.symm n 0).val - 7 = e.val + n.val - 7
      rw [hn]; omega
  · exfalso
    have := (h1 0).1
    change 7 ≤ e.val * 1 + ((⟨1, ![8]⟩ : Shape).rowMajor.symm n 0).val at this
    rw [hn] at this; exact h2 (by omega)
  · exfalso
    apply h1
    intro a
    match a with
    | ⟨0, _⟩ =>
      show 7 ≤ e.val * 1 + ((⟨1, ![8]⟩ : Shape).rowMajor.symm n 0).val ∧ e.val * 1 + ((⟨1, ![8]⟩ : Shape).rowMajor.symm n 0).val - 7 < 8
      rw [hn]; omega
  · rfl

theorem sum_window (w : ℕ → ℕ) (e : Fin 8) :
    ((List.finRange 8).map fun n : Fin 8 => if 7 ≤ e.val + n.val then w (e.val + n.val - 7) else 0).sum
      = ∑ k ∈ Finset.range (e.val + 1), w k := by
  rw [← Fin.sum_univ_def, Fin.sum_univ_eight]
  fin_cases e <;> simp [Finset.sum_range_succ] <;> ring

/-- A window sum of width 8 over a vector padded with 7 zeros in front is the prefix sum, while no sum overflows. -/
theorem reduceWindow8_toNat (v : S8.Idx → BitVec 32) (init : S_.Idx → BitVec 32) (h0 : init (Shape.Idx.first h_S_) = 0#32)
    (w : ℕ → ℕ) (hv : ∀ k : Fin 8, (v (ix1 k)).toNat = w k.val) (hsum : ∑ k ∈ Finset.range 8, w k < 2 ^ 32) (e : Fin 8) :
    (Host.reduceWindow IntOp.addi ![8] ![1] ![7] ![0] v init reduceWindows_S8_S8_w8s1p7_0 h_S_ (ix1 e)).toNat
      = ∑ k ∈ Finset.range (e.val + 1), w k := by
  have hg : ∀ n : Fin 8, (winW v e n).toNat = if 7 ≤ e.val + n.val then w (e.val + n.val - 7) else 0 := by
    intro n
    unfold winW
    split_ifs with h
    · exact hv _
    · rfl
  have hle : ∑ k ∈ Finset.range (e.val + 1), w k ≤ ∑ k ∈ Finset.range 8, w k :=
    Finset.sum_le_sum_of_subset (Finset.range_mono (by have := e.isLt; omega))
  have hS : ((List.finRange 8).map fun n => (winW v e n).toNat).sum = ∑ k ∈ Finset.range (e.val + 1), w k := by
    rw [← sum_window w e]
    exact congrArg List.sum (List.map_congr_left fun n _ => hg n)
  rw [reduceWindow8_apply v init h0 e, toNat_foldl_add (winW v e) _ _ (by rw [hS]; simp; omega), hS]
  simp

theorem cat9_zero {α : Type} (a : S1.Idx → α) (b : S8.Idx → α) :
    concatenate S9 0 [⟨S1, a⟩, ⟨S8, b⟩] concatenates_S1_S8_S9_d0 (ix1 (0 : Fin 9)) = a (ix1 (0 : Fin 1)) :=
  concatenate_pair_apply_left 0 a b concatenates_S1_S8_S9_d0 _ rfl _ (fun c => by
    match c with
    | ⟨0, _⟩ => rfl)

theorem cat9_succ {α : Type} (a : S1.Idx → α) (b : S8.Idx → α) (e : Fin 8) :
    concatenate S9 0 [⟨S1, a⟩, ⟨S8, b⟩] concatenates_S1_S8_S9_d0 (ix1 e.succ) = b (ix1 e) :=
  concatenate_pair_apply_right 0 a b concatenates_S1_S8_S9_d0 _ rfl rfl _
    (fun c hc => by
      match c with
      | ⟨0, _⟩ => exact absurd rfl hc)
    rfl

theorem zero0_first : val_main_call2_call0_v0 xs (Shape.Idx.first h_S_) = 0#32 := by
  rw [val_main_call2_call0_v0, val_main_call2_call0_c]; rfl

theorem zero1_first : val_main_call3_call0_v0 xs (Shape.Idx.first h_S_) = 0#32 := by
  rw [val_main_call3_call0_v0, val_main_call3_call0_c]; rfl

theorem sum_cnt (hk : InRange xs) :
    ∑ k ∈ Finset.range 8, GroupedLayout.cnt (key xs) k = 16384 :=
  GroupedLayout.start_top 8 (key xs) hk

theorem sum_pcnt (hk : InRange xs) :
    ∑ k ∈ Finset.range 8, GroupedLayout.pcnt 512 (key xs) k ≤ 16384 + 8 * 511 :=
  GroupedLayout.off_le 8 512 (key xs) (by decide) hk

theorem v26_toNat (hk : InRange xs) (e : Fin 8) :
    (val_main_v26 xs (ix1 e)).toNat = GroupedLayout.start (key xs) (e.val + 1) := by
  rw [val_main_v26]
  exact reduceWindow8_toNat _ _ (zero0_first xs) (GroupedLayout.cnt (key xs))
    (fun k => v17_toNat' xs k) (by rw [sum_cnt xs hk]; decide) e

theorem v30_toNat (hk : InRange xs) (e : Fin 8) :
    (val_main_v30 xs (ix1 e)).toNat = GroupedLayout.off 512 (key xs) (e.val + 1) := by
  rw [val_main_v30]
  exact reduceWindow8_toNat _ _ (zero1_first xs) (GroupedLayout.pcnt 512 (key xs))
    (fun k => v24_toNat' xs k) (lt_of_le_of_lt (sum_pcnt xs hk) (by decide)) e

/-- Group starts: a zero, then the prefix sums of the counts. -/
theorem v27_toNat (hk : InRange xs) (e : Fin 9) :
    (val_main_v27 xs (ix1 e)).toNat = GroupedLayout.start (key xs) e.val := by
  rw [val_main_v27]
  induction e using Fin.cases with
  | zero =>
    refine (congrArg BitVec.toNat (cat9_zero _ _)).trans ?_
    rw [val_main_v25, val_main_c_6]
    rfl
  | succ e =>
    refine (congrArg BitVec.toNat (cat9_succ _ _ e)).trans ?_
    exact v26_toNat xs hk e

theorem v28_toNat (hk : InRange xs) (e : Fin 8) :
    (val_main_v28 xs (ix1 e)).toNat = GroupedLayout.start (key xs) e.val := by
  rw [val_main_v28]
  refine (congrArg BitVec.toNat (extractStridedSlice_apply ![0] _ slices_S9_S8_0 (ix1 e) (ix1 (e.castSucc : Fin 9)) (fun a => by
    match a with
    | ⟨0, _⟩ => show e.val = 0 + e.val; omega))).trans ?_
  exact v27_toNat xs hk e.castSucc

/-- Padded offsets: a zero, then the prefix sums of the padded counts. -/
theorem v31_toNat (hk : InRange xs) (e : Fin 9) :
    (val_main_v31 xs (ix1 e)).toNat = GroupedLayout.off 512 (key xs) e.val := by
  rw [val_main_v31]
  induction e using Fin.cases with
  | zero =>
    refine (congrArg BitVec.toNat (cat9_zero _ _)).trans ?_
    rw [val_main_v29, val_main_c_7]
    rfl
  | succ e =>
    refine (congrArg BitVec.toNat (cat9_succ _ _ e)).trans ?_
    exact v30_toNat xs hk e

end Cert.KernelIdeal.Counts

end
-- ==== Proof.Dest.lean ====
/- Each sorted position's row in the padded layout, and each 512-row tile's expert, as numbers. -/
import proofs.«407576_j40785009442943_3_alg».proof.Proof.Ids
import proofs.«407576_j40785009442943_3_alg».proof.Proof.Sort
import proofs.«407576_j40785009442943_3_alg».proof.Proof.Counts
import proofs.«407576_j40785009442943_3_alg».proof.Proof.LibGroupedLayout
import Idealize.ShloMosaic.Lib.StableHlo.Predicate

noncomputable section

namespace Cert.KernelIdeal.Dest

open Cert.KernelIdeal Cert.KernelIdeal.Gen Cert.KernelIdeal.HostVals Cert.KernelIdeal.Ids Cert.KernelIdeal.Sort Cert.KernelIdeal.Counts
open Idealize.ShloMosaic Idealize.ShloMosaic.ValueIdx

/-- Clipping into 0 … 7 keeps a word that is already there. -/
private theorem clip_eq (w : BitVec 32) (hw : w.toNat ≤ 7) : IntOp.minsi 7#32 (IntOp.maxsi 0#32 w) = w := by
  have hti : w.toInt = w.toNat := StableHlo.Predicate.toInt_eq_toNat_of_lt (by omega)
  have h0 : ¬ (w.slt 0#32 = true) := by
    simp only [BitVec.slt, hti, decide_eq_true_eq]
    have : (0#32 : BitVec 32).toInt = 0 := by decide
    rw [this]; omega
  have h7 : ¬ ((7#32 : BitVec 32).slt w = true) := by
    simp only [BitVec.slt, hti, decide_eq_true_eq]
    have : (7#32 : BitVec 32).toInt = 7 := by decide
    rw [this]; omega
  unfold IntOp.minsi IntOp.maxsi
  rw [if_neg h0, if_neg h7]

section Ops
variable {s : Shape} {w : Nat}
private theorem addi_at (a b : IVec s w) (i : s.Idx) : addi a b i = a i + b i := rfl
private theorem subi_at (a b : IVec s w) (i : s.Idx) : subi a b i = a i - b i := rfl
private theorem muli_at (a b : IVec s w) (i : s.Idx) : muli a b i = a i * b i := rfl
private theorem maxsi_at (a b : IVec s w) (i : s.Idx) : maxsi a b i = IntOp.maxsi (a i) (b i) := rfl
private theorem minsi_at (a b : IVec s w) (i : s.Idx) : minsi a b i = IntOp.minsi (a i) (b i) := rfl
end Ops

variable {F : FTy → Type} [FloatOps F]
variable (xs : Args F)

theorem off_le_top (hk : InRange xs) (e : ℕ) (he : e ≤ 8) :
    GroupedLayout.off 512 (key xs) e ≤ 20472 := by
  have h1 := GroupedLayout.off_mono 512 (key xs) he
  have h2 := GroupedLayout.off_le 8 512 (key xs) (by decide) hk
  omega

theorem v32_apply (i : S16384.Idx) : val_main_v32 xs i = 0#32 := by
  rw [val_main_v32, val_main_c_8]; rfl

theorem v40_apply (i : S16384.Idx) : val_main_v40 xs i = 0#32 := by
  rw [val_main_v40, val_main_c_10]; rfl

private theorem wrap_eq (w a : BitVec 32) (hw : w.toNat < 8) : Scalar.select (IntOp.cmpi .slt w 0#32) a w = w := by
  have hc : IntOp.cmpi .slt w 0#32 = 0#1 := by
    apply eq_zero_of_ne_one
    intro h
    have h' := (StableHlo.Predicate.slt_iff_toNat (a := w) (b := 0#32) (by omega) (by decide)).mp h
    have e0 : (0#32 : BitVec 32).toNat = 0 := by decide
    omega
  rw [hc, select_zero]

theorem v36_apply (hk : InRange xs) (j : Fin 16384) :
    val_main_v36 xs (ix1 j) = idw xs (sg xs j) := by
  rw [val_main_v36, select_apply, val_main_v33, cmpi_at, v32_apply, v9_apply]
  exact wrap_eq _ _ (hk _)

theorem v44_apply (hk : InRange xs) (j : Fin 16384) :
    val_main_v44 xs (ix1 j) = idw xs (sg xs j) := by
  rw [val_main_v44, select_apply, val_main_v41, cmpi_at, v40_apply, v9_apply]
  exact wrap_eq _ _ (hk _)

theorem v37_apply (hk : InRange xs) (j : Fin 16384) :
    val_main_v37 xs (StableHlo.Predicate.ixP j) = idw xs (sg xs j) := by
  rw [val_main_v37, StableHlo.Predicate.bcast_col1, ofFin_eq_ix1, v36_apply xs hk]

theorem v45_apply (hk : InRange xs) (j : Fin 16384) :
    val_main_v45 xs (StableHlo.Predicate.ixP j) = idw xs (sg xs j) := by
  rw [val_main_v45, StableHlo.Predicate.bcast_col1, ofFin_eq_ix1, v44_apply xs hk]

private theorem take8 (tbl : (⟨1, ![8]⟩ : Shape).Idx → BitVec 32) (idx : IVec ⟨2, ![16384, 1]⟩ 32) (j : Fin 16384)
    (w : BitVec 32) (hw : w.toNat < 8) (h : idx (StableHlo.Predicate.ixP j) = w) :
    Host.gather gather_S8_S16384x1_S16384_n_0_n_n_0_1_1 tbl idx (ix1 j) = tbl (ix1 ⟨w.toNat, hw⟩) := by
  rw [← ofFin_eq_ix1, StableHlo.Predicate.gather_take gather_S8_S16384x1_S16384_n_0_n_n_0_1_1 rfl rfl rfl rfl tbl idx j (by decide)]
  refine congrArg tbl ?_
  rw [← ofFin_eq_ix1]
  refine congrArg Shape.Idx.ofFin (Fin.ext ?_)
  show min (idx (StableHlo.Predicate.ixP j)).toInt.toNat (8 - 1) = w.toNat
  rw [h, StableHlo.Predicate.toInt_eq_toNat_of_lt (by omega), Int.toNat_natCast]
  omega

theorem v38_apply (hk : InRange xs) (j : Fin 16384) :
    val_main_v38 xs (ix1 j)
      = val_main_v28 xs (ix1 ⟨key xs (sg xs j), hk _⟩) := by
  rw [val_main_v38]
  beta_reduce
  exact take8 _ _ j _ (hk _) (v37_apply xs hk j)

theorem v39_apply (e : Fin 8) :
    val_main_v39 xs (ix1 e) = val_main_v31 xs (ix1 ⟨e.val, by omega⟩) := by
  rw [val_main_v39]
  simp only [extractStridedSlice]
  refine congrArg (val_main_v31 xs) ?_
  funext a
  match a with
  | ⟨0, _⟩ => exact Fin.ext (Nat.zero_add e.val)

theorem v46_apply (hk : InRange xs) (j : Fin 16384) :
    val_main_v46 xs (ix1 j)
      = val_main_v31 xs (ix1 ⟨key xs (sg xs j), Nat.lt_succ_of_lt (hk _)⟩) := by
  rw [val_main_v46]
  beta_reduce
  rw [take8 _ _ j _ (hk _) (v45_apply xs hk j), v39_apply]
  rfl

/-- The group start of the expert of the token at sorted position j. -/
theorem v38_toNat (hk : InRange xs) (j : Fin 16384) :
    (val_main_v38 xs (ix1 j)).toNat
      = GroupedLayout.start (key xs) (key xs (sg xs j)) := by
  rw [v38_apply xs hk j]
  exact Counts.v28_toNat xs hk ⟨_, hk _⟩

/-- Its padded offset. -/
theorem v46_toNat (hk : InRange xs) (j : Fin 16384) :
    (val_main_v46 xs (ix1 j)).toNat
      = GroupedLayout.off 512 (key xs) (key xs (sg xs j)) := by
  rw [v46_apply xs hk j]
  exact Counts.v31_toNat xs hk ⟨_, Nat.lt_succ_of_lt (hk _)⟩

theorem v47_apply (j : Fin 16384) : val_main_v47 xs (ix1 j) = BitVec.ofNat 32 j.val := by
  rw [val_main_v47]; rfl

/-- Position j's row: its expert's padded offset plus its rank inside the expert's run. -/
theorem v49_toNat (hk : InRange xs) (j : Fin 16384) :
    (val_main_v49 xs (ix1 j)).toNat = GroupedLayout.dest 512 (key xs) (sg xs) j := by
  have h46 := v46_toNat xs hk j
  have h38 := v38_toNat xs hk j
  have hσ := Sort.sg_bijective xs
  have hmono := Sort.sg_mono xs hk
  have hs := GroupedLayout.start_le (key xs) (sg xs) hσ hmono j
  have hd := GroupedLayout.dest_lt 8 512 (key xs) (sg xs) (by decide) hk hσ hmono j
  have ho := off_le_top xs hk 8 (le_refl _)
  have hj := j.isLt

  rw [val_main_v49, addi_at, val_main_v48, subi_at, v47_apply, BitVec.toNat_add, BitVec.toNat_sub,
    BitVec.toNat_ofNat, h46, h38]
  unfold GroupedLayout.dest at hd ⊢
  omega

theorem call4_v1_apply (i : S40.Idx) : val_main_call4_v1 xs i = 0#32 := by
  rw [val_main_call4_v1, val_main_call4_v0, val_main_c_14]; rfl

theorem call4_v4_apply (i : S40.Idx) : val_main_call4_v4 xs i = 7#32 := by
  rw [val_main_call4_v4, val_main_call4_v3, val_main_c_15]; rfl

theorem v61_apply (i : S40.Idx) :
    val_main_v61 xs i = IntOp.minsi 7#32 (IntOp.maxsi 0#32 (val_main_v60 xs i)) := by
  rw [val_main_v61, minsi_at, val_main_call4_v2, maxsi_at, call4_v1_apply, call4_v4_apply]

theorem v52_apply (τ : Fin 40) :
    val_main_v52 xs (Shape.Idx.ofFin τ) = BitVec.ofNat 32 τ.val * 512#32 := by
  rw [val_main_v52, muli_at, val_main_v50, val_main_v51, val_main_c_12]; rfl

theorem v52_toNat (τ : Fin 40) : (val_main_v52 xs (Shape.Idx.ofFin τ)).toNat = τ.val * 512 := by
  rw [v52_apply, BitVec.toNat_mul, BitVec.toNat_ofNat]
  have := τ.isLt
  have e : (512#32 : BitVec 32).toNat = 512 := by decide
  rw [e]; omega

theorem v53_apply (q : Fin 7) :
    val_main_v53 xs (Shape.Idx.ofFin q) = val_main_v31 xs (ix1 ⟨q.val + 1, by omega⟩) := by
  rw [val_main_v53]
  simp only [extractStridedSlice]
  refine congrArg (val_main_v31 xs) ?_
  funext a
  match a with
  | ⟨0, _⟩ => exact Fin.ext (Nat.add_comm 1 q.val)

theorem v58_iff (hk : InRange xs) (τ : Fin 40) (q : Fin 7) :
    val_main_v58 xs (StableHlo.Predicate.ij τ q) = 1#1
      ↔ GroupedLayout.off 512 (key xs) (q.val + 1) ≤ τ.val * 512 := by
  have h31 : (val_main_v31 xs (ix1 ⟨q.val + 1, by omega⟩)).toNat
      = GroupedLayout.off 512 (key xs) (q.val + 1) :=
    Counts.v31_toNat xs hk ⟨q.val + 1, by omega⟩
  have hb := off_le_top xs hk (q.val + 1) (by omega)
  have hτ := τ.isLt
  rw [val_main_v58, cmpi_at, val_main_v56, val_main_v54, StableHlo.Predicate.bcast_rows,
    val_main_v57, val_main_v55, StableHlo.Predicate.bcast_cols,
    StableHlo.Predicate.sge_iff_toNat (by rw [v52_toNat]; omega) (by rw [v53_apply, h31]; omega),
    v52_toNat, v53_apply, h31]

private theorem card_shift (P : ℕ → Prop) [DecidablePred P] :
    (Finset.univ.filter fun q : Fin 7 => P (q.val + 1)).card = ((Finset.Icc 1 7).filter P).card := by
  refine Finset.card_bij (fun q _ => q.val + 1) ?_ ?_ ?_
  · intro q hq
    rw [Finset.mem_filter] at hq ⊢
    exact ⟨Finset.mem_Icc.mpr ⟨by omega, by have := q.isLt; omega⟩, hq.2⟩
  · intro a _ b _ h
    exact Fin.ext (by omega)
  · intro b hb
    rw [Finset.mem_filter, Finset.mem_Icc] at hb
    refine ⟨⟨b - 1, by omega⟩, ?_, ?_⟩
    · rw [Finset.mem_filter]
      refine ⟨Finset.mem_univ _, ?_⟩
      show P (b - 1 + 1)
      rw [Nat.sub_add_cancel hb.1.1]; exact hb.2
    · show b - 1 + 1 = b
      omega

/-- Tile τ's expert: the number of padded offsets (of experts 1 … 7) at or below row τ · 512. -/
theorem v60_toNat (hk : InRange xs) (τ : Fin 40) :
    (val_main_v60 xs (ix1 τ)).toNat = GroupedLayout.tileGroup 8 512 (key xs) τ.val := by
  rw [val_main_v60, val_main_v59, val_main_c_13]
  beta_reduce
  rw [StableHlo.Predicate.toNat_reduce_count_cols (by decide) (val_main_v58 xs) natLt_1_32
    reducesTo_S40x7_S40_d1 h_S_ (ix1 τ)]
  have hset : (Finset.univ.filter fun q : Fin 7 => val_main_v58 xs (StableHlo.Predicate.ij ((ix1 τ) 0) q) = 1#1)
      = Finset.univ.filter fun q : Fin 7 => GroupedLayout.off 512 (key xs) (q.val + 1) ≤ τ.val * 512 := by
    ext q
    simp only [Finset.mem_filter, Finset.mem_univ, true_and]
    exact v58_iff xs hk τ q
  rw [hset]
  exact card_shift fun i => GroupedLayout.off 512 (key xs) i ≤ τ.val * 512

/-- That number is at most 7, so the clip keeps it. -/
theorem v61_toNat (hk : InRange xs) (τ : Fin 40) :
    (val_main_v61 xs (ix1 τ)).toNat = GroupedLayout.tileGroup 8 512 (key xs) τ.val := by
  have h60 := v60_toNat xs hk τ
  have hle := GroupedLayout.tileGroup_le 8 512 (key xs) τ.val
  rw [v61_apply, clip_eq _ (by rw [h60]; omega), h60]

end Cert.KernelIdeal.Dest

end
-- ==== Proof.Tables.lean ====
/- What the row moves and the product need of the integer tables: rows dst j inside the buffer, pairwise different, each in a tile of its own token's expert. -/
import proofs.«407576_j40785009442943_3_alg».proof.Proof.Ids
import proofs.«407576_j40785009442943_3_alg».proof.Proof.Sort
import proofs.«407576_j40785009442943_3_alg».proof.Proof.Counts
import proofs.«407576_j40785009442943_3_alg».proof.Proof.Dest
import proofs.«407576_j40785009442943_3_alg».proof.Proof.LibGroupedLayout

noncomputable section

namespace Cert.KernelIdeal.Tables

open Cert.KernelIdeal Cert.KernelIdeal.Gen Cert.KernelIdeal.HostVals Cert.KernelIdeal.Ids Cert.KernelIdeal.Sort Cert.KernelIdeal.Counts Cert.KernelIdeal.Dest
open Idealize.ShloMosaic Idealize.ShloMosaic.ValueIdx

variable {F : FTy → Type} [FloatOps F]
variable (xs : Args F)

theorem key_lt (hk : InRange xs) (t : Fin 16384) : key xs t < 8 := hk t

/-- The padded total is at most 16384 + 8 · 511 < 20480. -/
theorem dest_lt (hk : InRange xs) (j : Fin 16384) : GroupedLayout.dest 512 (key xs) (sg xs) j < 20480 := by
  have h1 := GroupedLayout.dest_lt 8 512 (key xs) (sg xs) (by norm_num) (key_lt xs hk)
    (sg_bijective xs) (sg_mono xs hk) j
  have h2 := GroupedLayout.off_le 8 512 (key xs) (by norm_num) (key_lt xs hk)
  omega

/-- Sorted position j's row in the padded buffer. -/
def dst (hk : InRange xs) (j : Fin 16384) : Fin 20480 := ⟨GroupedLayout.dest 512 (key xs) (sg xs) j, dest_lt xs hk j⟩

theorem dst_injective (hk : InRange xs) : Function.Injective (dst xs hk) := by
  intro i j h
  exact GroupedLayout.dest_injective 512 (key xs) (sg xs) (by norm_num) (sg_bijective xs)
    (sg_mono xs hk) (congrArg Fin.val h)

theorem v49_word (hk : InRange xs) (j : Fin 16384) : val_main_v49 xs (ix1 j) = BitVec.ofNat 32 (dst xs hk j).val := by
  apply BitVec.eq_of_toNat_eq
  rw [v49_toNat xs hk j, BitVec.toNat_ofNat]
  have := dest_lt xs hk j
  show _ = GroupedLayout.dest 512 (key xs) (sg xs) j % 2 ^ 32
  omega

theorem v2_word (j : Fin 16384) : val_main_v2 xs (ix1 j) = BitVec.ofNat 32 (sg xs j).val :=
  v2_apply xs j

theorem tile_lt (r : Fin 20480) : r.val / 512 < 40 := by omega

/-- The tile holding row dst j is given the expert of the token at position j. -/
theorem gid_dst (hk : InRange xs) (j : Fin 16384) :
    (val_main_v61 xs (ix1 (⟨(dst xs hk j).val / 512, tile_lt _⟩ : Fin 40))).toNat
      = key xs (sg xs j) := by
  rw [v61_toNat xs hk]
  exact GroupedLayout.tileGroup_dest 8 512 (key xs) (sg xs) (by norm_num) (key_lt xs hk)
    (sg_bijective xs) (sg_mono xs hk) j

end Cert.KernelIdeal.Tables

end
-- ==== Proof.LibScatterRows.lean ====
/- Moving whole rows through a one-column index: an overwriting scatter whose rows are pairwise different, and a gather. -/
import Idealize.ShloMosaic.PureOps
import Idealize.ShloMosaic.Lib.ValueIdx

namespace ScatterRows

open Idealize.ShloMosaic Idealize.ShloMosaic.ValueIdx

variable {α : Type}

private theorem foldl_of_not_mem {s si u : Shape} {w : Nat} (d : ScatterDims s si u) (f : α → α → α)
    (idx : IVec si w) (upd : u.Idx → α) (i : s.Idx) :
    ∀ (l : List (Fin u.numel)) (r : s.Idx → α),
      (∀ n ∈ l, d.resultIdx? (u.rowMajor.symm n) idx ≠ some i) →
      l.foldl (fun r n =>
        match d.resultIdx? (u.rowMajor.symm n) idx with
        | some i0 => fun i' => if i' = i0 then f (r i0) (upd (u.rowMajor.symm n)) else r i'
        | none => r) r i = r i := by
  intro l
  induction l with
  | nil => intro r _; rfl
  | cons m t ih =>
    intro r h
    rw [List.foldl_cons, ih _ (fun n hn => h n (List.mem_cons_of_mem _ hn))]
    have hm := h m List.mem_cons_self
    cases hg : d.resultIdx? (u.rowMajor.symm m) idx with
    | none => rfl
    | some i0 =>
      rw [hg] at hm
      have hne : i ≠ i0 := fun e => hm (by rw [e])
      show (if i = i0 then _ else r i) = r i
      rw [if_neg hne]

private theorem foldl_of_mem {s si u : Shape} {w : Nat} (d : ScatterDims s si u) (f : α → α → α)
    (hf : ∀ a b, f a b = b) (idx : IVec si w) (upd : u.Idx → α) (i : s.Idx) (m : Fin u.numel)
    (hm : d.resultIdx? (u.rowMajor.symm m) idx = some i) :
    ∀ (l : List (Fin u.numel)) (r : s.Idx → α), m ∈ l →
      (∀ n ∈ l, d.resultIdx? (u.rowMajor.symm n) idx = some i → n = m) →
      l.foldl (fun r n =>
        match d.resultIdx? (u.rowMajor.symm n) idx with
        | some i0 => fun i' => if i' = i0 then f (r i0) (upd (u.rowMajor.symm n)) else r i'
        | none => r) r i = upd (u.rowMajor.symm m) := by
  intro l
  induction l with
  | nil => intro r h; exact absurd h List.not_mem_nil
  | cons a t ih =>
    intro r hmem huniq
    rw [List.foldl_cons]
    by_cases hmt : m ∈ t
    · exact ih _ hmt (fun n hn => huniq n (List.mem_cons_of_mem _ hn))
    · have ham : a = m := by
        rcases List.mem_cons.1 hmem with e | e
        · exact e.symm
        · exact absurd e hmt
      subst ham
      rw [foldl_of_not_mem d f idx upd i t _
        (fun n hn e => hmt (by rw [← huniq n (List.mem_cons_of_mem _ hn) e]; exact hn))]
      rw [hm]
      show (if i = i then _ else r i) = _
      rw [if_pos rfl, hf]

/-- If no two updates share a target, the target of update j ends holding update j. -/
theorem scatter_set_of_mem {s si u : Shape} {w : Nat} (d : ScatterDims s si u) (x : s.Idx → α) (idx : IVec si w)
    (upd : u.Idx → α)
    (hinj : ∀ (j j' : u.Idx) (i : s.Idx), d.resultIdx? j idx = some i → d.resultIdx? j' idx = some i → j = j')
    (j : u.Idx) (i : s.Idx) (hj : d.resultIdx? j idx = some i) :
    Host.scatter d (fun _ b => b) x idx upd i = upd j := by
  have hjm : u.rowMajor.symm (u.rowMajor j) = j := u.rowMajor.symm_apply_apply j

  have h := foldl_of_mem d (fun _ b => b) (fun _ _ => rfl) idx upd i (u.rowMajor j) (by rw [hjm]; exact hj)
    (List.finRange u.numel) x (List.mem_finRange _)
    (fun n _ hn => u.rowMajor.symm.injective (hinj _ _ i hn (by rw [hjm]; exact hj)))
  rw [hjm] at h
  exact h

section Rows

variable {R C n w : Nat}

private theorem kept_one {s : Shape} (hr : s.rank = 2) (l : List (Fin s.rank)) (hl : l = [⟨1, by omega⟩]) :
    s.kept l = [⟨0, by omega⟩] := by
  obtain ⟨rank, size⟩ := s
  simp only at hr
  subst hr
  subst hl
  rfl

private theorem kept_zero {s : Shape} (hr : s.rank = 2) (l : List (Fin s.rank)) (hl : l = [⟨0, by omega⟩]) :
    s.kept l = [⟨1, by omega⟩] := by
  obtain ⟨rank, size⟩ := s
  simp only at hr
  subst hr
  subst hl
  rfl

private theorem getElem_of_eq_singleton {ι : Type} {l : List ι} {a : ι} (hl : l = [a]) (p : Nat) (hp : p < l.length) :
    l[p]'hp = a := by
  subst hl
  have h0 : p = 0 := by simpa using hp
  subst h0
  rfl

private theorem siIdx_row (d : ScatterDims ⟨2, ![R, C]⟩ ⟨2, ![n, 1]⟩ ⟨2, ![n, C]⟩)
    (h1 : d.updateWindowDims = [1]) (h3 : d.scatterDimsToOperandDims = [0])
    (h4 : d.indexVectorDim = 1) (j : Fin n) (k : Fin C) (c : Fin d.scatterDimsToOperandDims.length) :
    d.siIdx (ix2 j k) c = ix2 j (0 : Fin 1) := by
  have hU : d.uScatter = [0] := kept_one rfl _ h1
  funext b
  refine Fin.ext ?_
  match b with
  | ⟨0, _⟩ =>
    unfold ScatterDims.siIdx
    rw [dif_neg (by rw [h4]; exact Nat.zero_ne_one)]
    unfold ScatterDims.siCoord
    simp only [Fin.val_cast]
    rw [getElem_of_eq_singleton hU]
    rfl
  | ⟨1, _⟩ =>
    unfold ScatterDims.siIdx
    rw [dif_pos (by rw [h4])]
    have hc := c.isLt
    simp only [h3, List.length_singleton] at hc
    show c.val = 0
    omega

private theorem start_row0 (d : ScatterDims ⟨2, ![R, C]⟩ ⟨2, ![n, 1]⟩ ⟨2, ![n, C]⟩)
    (h1 : d.updateWindowDims = [1]) (h3 : d.scatterDimsToOperandDims = [0])
    (h4 : d.indexVectorDim = 1) (idx : IVec ⟨2, ![n, 1]⟩ w) (j : Fin n) (k : Fin C) :
    d.start (ix2 j k) idx 0 = (idx (ix2 j (0 : Fin 1))).toInt := by
  unfold ScatterDims.start
  rw [dif_pos (by rw [h3]; exact List.mem_singleton.2 rfl), siIdx_row d h1 h3 h4]

private theorem start_row1 (d : ScatterDims ⟨2, ![R, C]⟩ ⟨2, ![n, 1]⟩ ⟨2, ![n, C]⟩)
    (h3 : d.scatterDimsToOperandDims = [0]) (idx : IVec ⟨2, ![n, 1]⟩ w) (j : Fin n) (k : Fin C) :
    d.start (ix2 j k) idx 1 = 0 := by
  unfold ScatterDims.start
  rw [dif_neg (by rw [h3]; exact fun h => absurd (congrArg Fin.val (List.mem_singleton.1 h)) Nat.one_ne_zero)]

private theorem window_row0 (d : ScatterDims ⟨2, ![R, C]⟩ ⟨2, ![n, 1]⟩ ⟨2, ![n, C]⟩)
    (h2 : d.insertedWindowDims = [0]) (j : Fin n) (k : Fin C) :
    d.window (ix2 j k) 0 = 0 := by
  have hS : d.sKept = [1] := kept_zero rfl _ h2
  unfold ScatterDims.window
  rw [dif_neg (by rw [hS]; exact fun h => absurd (congrArg Fin.val (List.mem_singleton.1 h)) Nat.zero_ne_one)]

private theorem window_row1 (d : ScatterDims ⟨2, ![R, C]⟩ ⟨2, ![n, 1]⟩ ⟨2, ![n, C]⟩)
    (h1 : d.updateWindowDims = [1]) (h2 : d.insertedWindowDims = [0]) (j : Fin n) (k : Fin C) :
    d.window (ix2 j k) 1 = k.val := by
  have hS : d.sKept = [1] := kept_zero rfl _ h2
  unfold ScatterDims.window
  rw [dif_pos (by rw [hS]; exact List.mem_singleton.2 rfl), getElem_of_eq_singleton h1]
  rfl

theorem resultIdx_row (d : ScatterDims ⟨2, ![R, C]⟩ ⟨2, ![n, 1]⟩ ⟨2, ![n, C]⟩)
    (h1 : d.updateWindowDims = [1]) (h2 : d.insertedWindowDims = [0]) (h3 : d.scatterDimsToOperandDims = [0])
    (h4 : d.indexVectorDim = 1) (idx : IVec ⟨2, ![n, 1]⟩ w) (j : Fin n) (k : Fin C) (r : Fin R)
    (hr : (idx (ix2 j (0 : Fin 1))).toInt = (r.val : Int)) :
    d.resultIdx? (ix2 j k) idx = some (ix2 r k) := by

  have e0 : d.start (ix2 j k) idx 0 + d.window (ix2 j k) 0 = (r.val : Int) := by
    rw [start_row0 d h1 h3 h4, window_row0 d h2, hr]; simp
  have e1 : d.start (ix2 j k) idx 1 + d.window (ix2 j k) 1 = (k.val : Int) := by
    rw [start_row1 d h3, window_row1 d h1 h2]; simp

  have hin : ∀ a, 0 ≤ d.start (ix2 j k) idx a + d.window (ix2 j k) a ∧
      d.start (ix2 j k) idx a + d.window (ix2 j k) a < (⟨2, ![R, C]⟩ : Shape).size a := by
    intro a
    match a with
    | ⟨0, _⟩ =>
      have := r.isLt
      show 0 ≤ d.start (ix2 j k) idx 0 + d.window (ix2 j k) 0 ∧ d.start (ix2 j k) idx 0 + d.window (ix2 j k) 0 < (R : Int)
      rw [e0]; omega
    | ⟨1, _⟩ =>
      have := k.isLt
      show 0 ≤ d.start (ix2 j k) idx 1 + d.window (ix2 j k) 1 ∧ d.start (ix2 j k) idx 1 + d.window (ix2 j k) 1 < (C : Int)
      rw [e1]; omega
  unfold ScatterDims.resultIdx?
  rw [dif_pos hin]
  refine congrArg some ?_
  funext a
  refine Fin.ext ?_
  match a with
  | ⟨0, _⟩ =>
    show (d.start (ix2 j k) idx 0 + d.window (ix2 j k) 0).toNat = r.val
    rw [e0]; simp
  | ⟨1, _⟩ =>
    show (d.start (ix2 j k) idx 1 + d.window (ix2 j k) 1).toNat = k.val
    rw [e1]; simp

theorem resultIdx_row_some (d : ScatterDims ⟨2, ![R, C]⟩ ⟨2, ![n, 1]⟩ ⟨2, ![n, C]⟩)
    (h1 : d.updateWindowDims = [1]) (h2 : d.insertedWindowDims = [0]) (h3 : d.scatterDimsToOperandDims = [0])
    (h4 : d.indexVectorDim = 1) (idx : IVec ⟨2, ![n, 1]⟩ w) (j : Fin n) (k : Fin C) (i : (⟨2, ![R, C]⟩ : Shape).Idx)
    (h : d.resultIdx? (ix2 j k) idx = some i) :
    (idx (ix2 j (0 : Fin 1))).toInt = ((i 0).val : Int) ∧ (i 1).val = k.val := by
  unfold ScatterDims.resultIdx? at h
  split at h
  · next hin =>

    have hi := Option.some.inj h
    subst hi
    have h0 := (hin 0).1
    rw [start_row0 d h1 h3 h4, window_row0 d h2] at h0
    constructor
    · show _ = (((d.start (ix2 j k) idx 0 + d.window (ix2 j k) 0).toNat : Nat) : Int)
      rw [start_row0 d h1 h3 h4, window_row0 d h2]
      omega
    · show (d.start (ix2 j k) idx 1 + d.window (ix2 j k) 1).toNat = k.val
      rw [start_row1 d h3, window_row1 d h1 h2]; simp
  · exact absurd h (by simp)

/-- With pairwise different rows, row (row j) ends holding update row j. -/
theorem scatter_rows_apply (d : ScatterDims ⟨2, ![R, C]⟩ ⟨2, ![n, 1]⟩ ⟨2, ![n, C]⟩)
    (h1 : d.updateWindowDims = [1]) (h2 : d.insertedWindowDims = [0]) (h3 : d.scatterDimsToOperandDims = [0])
    (h4 : d.indexVectorDim = 1) (x : (⟨2, ![R, C]⟩ : Shape).Idx → α) (idx : IVec ⟨2, ![n, 1]⟩ w)
    (upd : (⟨2, ![n, C]⟩ : Shape).Idx → α) (row : Fin n → Fin R)
    (hrow : ∀ j, (idx (ix2 j (0 : Fin 1))).toInt = ((row j).val : Int)) (hinj : Function.Injective row)
    (j : Fin n) (k : Fin C) :
    Host.scatter d (fun _ b => b) x idx upd (ix2 (row j) k) = upd (ix2 j k) := by
  refine scatter_set_of_mem d x idx upd ?_ (ix2 j k) (ix2 (row j) k) (resultIdx_row d h1 h2 h3 h4 idx j k (row j) (hrow j))

  intro a b i ha hb
  obtain ⟨a0, a1, rfl⟩ : ∃ (a0 : Fin n) (a1 : Fin C), a = ix2 a0 a1 := ⟨a 0, a 1, eq_ix2 a⟩
  obtain ⟨b0, b1, rfl⟩ : ∃ (b0 : Fin n) (b1 : Fin C), b = ix2 b0 b1 := ⟨b 0, b 1, eq_ix2 b⟩
  obtain ⟨pa, qa⟩ := resultIdx_row_some d h1 h2 h3 h4 idx a0 a1 i ha
  obtain ⟨pb, qb⟩ := resultIdx_row_some d h1 h2 h3 h4 idx b0 b1 i hb
  rw [hrow a0] at pa
  rw [hrow b0] at pb
  have e0 : a0 = b0 := hinj (Fin.ext (by omega))
  have e1 : a1 = b1 := Fin.ext (by omega)
  rw [e0, e1]

/-- Row j of the gather is row (index j) of the operand. -/
theorem gather_rows_apply (d : GatherDims ⟨2, ![R, C]⟩ ⟨2, ![n, 1]⟩ ⟨2, ![n, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![R, C]⟩ : Shape).Idx → α) (idx : IVec ⟨2, ![n, 1]⟩ w)
    (j : Fin n) (k : Fin C) (r : Fin R) (hr : (idx (ix2 j (0 : Fin 1))).toInt = (r.val : Int)) :
    Host.gather d x idx (ix2 j k) = x (ix2 r k) := by
  have hB : d.batchDims = [0] := kept_one rfl _ h1
  have hS : d.sKept = [1] := by
    show Shape.kept _ (d.collapsedSliceDims ++ d.operandBatchingDims) = _
    rw [h3, List.append_nil]
    exact kept_zero rfl _ h2
  have hb : ∀ a, a ∉ d.operandBatchingDims := by intro a; rw [h3]; exact List.not_mem_nil

  have hsi : ∀ c, d.siIdx (ix2 j k) c = ix2 j (0 : Fin 1) := by
    intro c
    funext b
    refine Fin.ext ?_
    match b with
    | ⟨0, _⟩ =>
      unfold GatherDims.siIdx
      rw [dif_neg (by rw [h6]; exact Nat.zero_ne_one)]
      unfold GatherDims.siCoord
      simp only [Fin.val_cast]
      rw [getElem_of_eq_singleton hB]
      rfl
    | ⟨1, _⟩ =>
      unfold GatherDims.siIdx
      rw [dif_pos (by rw [h6])]
      have hc := c.isLt
      simp only [h5, List.length_singleton] at hc
      show c.val = 0
      omega
  unfold Host.gather
  refine congrArg x ?_
  funext a
  refine Fin.ext ?_
  show d.start (ix2 j k) idx a + d.batchCoord (ix2 j k) a + d.offCoord (ix2 j k) a = (ix2 r k a).val
  rw [GatherDims.batchCoord_eq_zero _ _ _ (hb a), Nat.add_zero]
  match a with
  | ⟨0, _⟩ =>

    have hk : (0 : Fin 2) ∉ d.sKept := by
      rw [hS]; exact fun h => absurd (congrArg Fin.val (List.mem_singleton.1 h)) Nat.zero_ne_one
    show d.start (ix2 j k) idx 0 + d.offCoord (ix2 j k) 0 = r.val
    rw [GatherDims.offCoord_eq_zero _ _ _ hk, Nat.add_zero]
    unfold GatherDims.start
    rw [dif_pos (by rw [h5]; exact List.mem_singleton.2 rfl), hsi, hr, h7]
    have := r.isLt
    show min (r.val : Int).toNat (R - 1) = r.val
    simp only [Int.toNat_natCast]
    omega
  | ⟨1, _⟩ =>

    show d.start (ix2 j k) idx 1 + d.offCoord (ix2 j k) 1 = k.val
    unfold GatherDims.start
    rw [dif_neg (by rw [h5]; exact fun h => absurd (congrArg Fin.val (List.mem_singleton.1 h)) Nat.one_ne_zero), Nat.zero_add]
    unfold GatherDims.offCoord
    rw [dif_pos (by rw [hS]; exact List.mem_singleton.2 rfl), getElem_of_eq_singleton h1]
    rfl

end Rows

end ScatterRows
-- ==== Proof.Moves.lean ====
/- The row moves around the product: token σ j's row goes to padded row dst j, and row dst j of the product comes back to row σ j; weights and biases are laid out expert-major. -/
import proofs.«407576_j40785009442943_3_alg».proof.Proof.Ids
import proofs.«407576_j40785009442943_3_alg».proof.Proof.Sort
import proofs.«407576_j40785009442943_3_alg».proof.Proof.Tables
import proofs.«407576_j40785009442943_3_alg».proof.Proof.LibScatterRows
import Idealize.ShloMosaic.Lib.Pipeline.Value
import Idealize.ShloMosaic.Lib.ValueLayout
import Idealize.ShloMosaic.Lib.StableHlo.Predicate

noncomputable section

namespace Cert.KernelIdeal.Moves

open Cert.KernelIdeal Cert.KernelIdeal.Gen Cert.KernelIdeal.HostVals
open Cert.KernelIdeal.Ids Cert.KernelIdeal.Sort Cert.KernelIdeal.Tables
open Idealize.ShloMosaic Idealize.ShloMosaic.ValueIdx

theorem wrap_keep (w a : BitVec 32) (hw : w.toNat < 2 ^ 31) :
    Scalar.select (IntOp.cmpi .slt w 0#32) a w = w := by
  have h : ¬ IntOp.cmpi .slt w 0#32 = 1#1 := by
    rw [StableHlo.Predicate.slt_iff_toNat hw (by decide)]
    exact Nat.not_lt_zero _
  rw [eq_zero_of_ne_one h, select_zero]

/-- A word spelling a row number r < 2³¹ is not negative as a signed word, so the wrap of negative indices keeps it; the column's entry (j, 0) is the vector's entry j. -/
theorem idx_col (hb0 : (⟨0, ![]⟩ : Shape).BroadcastsInDim ⟨1, ![16384]⟩ ![])
    (hb1 : (⟨1, ![16384]⟩ : Shape).BroadcastsInDim ⟨2, ![16384, 1]⟩ ![0])
    (v : IVec ⟨1, ![16384]⟩ 32) (N : BitVec 32) (j : Fin 16384) (r : ℕ) (hr : r < 2 ^ 31)
    (hv : v (ix1 j) = BitVec.ofNat 32 r) :
    broadcastInDim ⟨2, ![16384, 1]⟩ ![0] hb1
      (select (cmpi .slt v (broadcastInDim ⟨1, ![16384]⟩ ![] hb0 (constantI ⟨0, ![]⟩ 32 0#32)))
        (addi v (broadcastInDim ⟨1, ![16384]⟩ ![] hb0 (constantI ⟨0, ![]⟩ 32 N))) v) (ix2 j (0 : Fin 1))
      = BitVec.ofNat 32 r := by
  refine (broadcastInDim_apply _ hb1 _ (ix2 j (0 : Fin 1)) (ix1 j) ?_).trans ?_
  · intro a
    match a with
    | ⟨0, _⟩ => rfl
  · rw [select_apply]
    exact (wrap_keep _ _ (by rw [hv, BitVec.toNat_ofNat]; omega)).trans hv

variable (xs : Args Ideal)

abbrev xflat : (⟨2, ![16384, 1024]⟩ : Shape).Idx → EReal := val_main_v0 xs
abbrev xpadv : (⟨2, ![20480, 1024]⟩ : Shape).Idx → EReal := val_main_v77 xs
abbrev wv : (⟨3, ![8, 1024, 1024]⟩ : Shape).Idx → EReal := val_main_v79 xs
abbrev bv : (⟨3, ![8, 1, 1024]⟩ : Shape).Idx → EReal := val_main_v82 xs
abbrev wts : (⟨3, ![1024, 8, 1024]⟩ : Shape).Idx → EReal := xs.x2
abbrev bia : (⟨3, ![1024, 8, 1]⟩ : Shape).Idx → EReal := xs.x3

abbrev yfin (o83 : (⟨2, ![20480, 1024]⟩ : Shape).Idx → EReal) : (⟨2, ![16384, 1024]⟩ : Shape).Idx → EReal :=
  tail_main_v98 o83 xs

theorem v67_entry (j : Fin 16384) :
    val_main_v67 xs (ix2 j (0 : Fin 1)) = BitVec.ofNat 32 (sg xs j).val := by
  rw [val_main_v67, val_main_v66, val_main_v63, val_main_v65, val_main_v62, val_main_v64,
    val_main_c_16, val_main_c_17]
  exact idx_col _ _ _ _ j _ (by have := (sg xs j).isLt; omega) (v2_word xs j)

theorem v76_entry (hk : InRange xs) (j : Fin 16384) :
    val_main_v76 xs (ix2 j (0 : Fin 1)) = BitVec.ofNat 32 (dst xs hk j).val := by
  rw [val_main_v76, val_main_v75, val_main_v72, val_main_v74, val_main_v71, val_main_v73,
    val_main_c_18, val_main_c_19]
  exact idx_col _ _ _ _ j _ (by have := (dst xs hk j).isLt; omega) (v49_word xs hk j)

theorem v89_entry (hk : InRange xs) (o83 : (⟨2, ![20480, 1024]⟩ : Shape).Idx → EReal) (j : Fin 16384) :
    tail_main_v89 o83 xs (ix2 j (0 : Fin 1)) = BitVec.ofNat 32 (dst xs hk j).val := by
  rw [tail_main_v89, tail_main_v88, tail_main_v85, tail_main_v87, tail_main_v84, tail_main_v86,
    tail_main_c_20, tail_main_c_21]
  exact idx_col _ _ _ _ j _ (by have := (dst xs hk j).isLt; omega) (v49_word xs hk j)

theorem v97_entry (o83 : (⟨2, ![20480, 1024]⟩ : Shape).Idx → EReal) (j : Fin 16384) :
    tail_main_v97 o83 xs (ix2 j (0 : Fin 1)) = BitVec.ofNat 32 (sg xs j).val := by
  rw [tail_main_v97, tail_main_v96, tail_main_v93, tail_main_v95, tail_main_v92, tail_main_v94,
    tail_main_c_23, tail_main_c_24]
  exact idx_col _ _ _ _ j _ (by have := (sg xs j).isLt; omega) (v2_word xs j)

theorem v68_row (j : Fin 16384) (k : Fin 1024) :
    val_main_v68 xs (ix2 j k) = val_main_v0 xs (ix2 (sg xs j) k) := by
  rw [val_main_v68]
  refine ScatterRows.gather_rows_apply _ rfl rfl rfl rfl rfl rfl rfl _ _ j k (sg xs j) ?_
  rw [v67_entry xs j]
  exact StableHlo.Predicate.toInt_ofNat_small _ (by have := (sg xs j).isLt; omega)

/-- Padded row dst j holds the row of token σ j (dst is injective). -/
theorem v77_row (hk : InRange xs) (j : Fin 16384) (k : Fin 1024) :
    xpadv xs (ix2 (dst xs hk j) k) = xflat xs (ix2 (sg xs j) k) := by
  show val_main_v77 xs (ix2 (dst xs hk j) k)
    = val_main_v0 xs (ix2 (sg xs j) k)
  rw [val_main_v77]
  refine (ScatterRows.scatter_rows_apply _ rfl rfl rfl rfl _ _ _ (dst xs hk) (fun j' => ?_)
    (dst_injective xs hk) j k).trans ?_
  · rw [v76_entry xs hk j']
    exact StableHlo.Predicate.toInt_ofNat_small _ (by have := (dst xs hk j').isLt; omega)
  · rw [val_main_v69]
    exact v68_row xs j k

/-- w[e, k, o] = W[o, e, k]. -/
theorem v79_apply (e : Fin 8) (k o : Fin 1024) :
    wv xs (ix3 e k o) = wts xs (ix3 o e k) := by
  show val_main_v79 xs (ix3 e k o) = xs.x2 (ix3 o e k)
  rw [val_main_v79, val_main_v78]
  show transpose S8x1024x1024 [1, 2, 0] xs.x2 transposes_S1024x8x1024_S8x1024x1024_1_2_0 (ix3 e k o) = xs.x2 (ix3 o e k)
  exact transpose_apply _ xs.x2 _ _ _ fun b => match b with | ⟨0, _⟩ => rfl | ⟨1, _⟩ => rfl | ⟨2, _⟩ => rfl

/-- b[e, 0, o] = B[o, e, 0]. -/
theorem v82_apply (e : Fin 8) (o : Fin 1024) :
    bv xs (ix3 e (0 : Fin 1) o) = bia xs (ix3 o e (0 : Fin 1)) := by
  show val_main_v82 xs (ix3 e (0 : Fin 1) o) = xs.x3 (ix3 o e (0 : Fin 1))
  rw [val_main_v82, val_main_v81, val_main_v80]
  refine (broadcastInDim_apply _ _ _ (ix3 e (0 : Fin 1) o) (ix2 e o) ?_).trans ?_
  · intro a
    match a with
    | ⟨0, _⟩ => rfl
    | ⟨1, _⟩ => rfl
  refine (transpose_ix2_apply _ _ e o).trans ?_
  refine shapeCast_apply xs.x3 _ _ _ ?_
  rw [Shape.rowMajor_val_three, Shape.rowMajor_val_two]
  show (o.val * 8 + e.val) * 1 + 0 = o.val * 8 + e.val
  omega

/-- The final array's row σ j is row dst j of the product (σ is injective). -/
theorem yfin_row (hk : InRange xs) (o83 : (⟨2, ![20480, 1024]⟩ : Shape).Idx → EReal) (j : Fin 16384) (o : Fin 1024) :
    yfin xs o83 (ix2 (sg xs j) o) = o83 (ix2 (dst xs hk j) o) := by
  show tail_main_v98 o83 xs (ix2 (sg xs j) o) = o83 (ix2 (dst xs hk j) o)
  rw [tail_main_v98]
  refine (ScatterRows.scatter_rows_apply _ rfl rfl rfl rfl _ _ _ (sg xs) (fun j' => ?_)
    (sg_bijective xs).1 j o).trans ?_
  · rw [v97_entry xs o83 j']
    exact StableHlo.Predicate.toInt_ofNat_small _ (by have := (sg xs j').isLt; omega)
  · rw [tail_main_v90]
    refine ScatterRows.gather_rows_apply _ rfl rfl rfl rfl rfl rfl rfl _ _ j o (dst xs hk j) ?_
    rw [v89_entry xs hk o83 j]
    exact StableHlo.Predicate.toInt_ofNat_small _ (by have := (dst xs hk j).isLt; omega)

end Cert.KernelIdeal.Moves

end
-- ==== Proof.OkOfPre.lean ====
/- Every word of the per-tile expert table is a count clipped into 0 … 7, so the expert-axis block index (word, 0, 0) read from it stays inside the 8 experts. -/
import proofs.«407576_j40785009442943_3_alg».proof.Proof.Gen.KernelIdeal.Frame.Runs
import Idealize.ShloMosaic.Lib.StableHlo.Run
import Idealize.ShloMosaic.Lib.ValueIdx

set_option maxRecDepth 16384

noncomputable section

namespace Cert.KernelIdeal.OkOfPre

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A word clipped into 0 … 7 in signed arithmetic spells a number below 8. -/
theorem clip_lt (w : BitVec 32) : (IntOp.minsi 7#32 (IntOp.maxsi 0#32 w)).toNat < 8 := by
  unfold IntOp.minsi IntOp.maxsi
  have h32 := w.isLt
  by_cases h0 : w.slt 0#32 = true
  · rw [if_pos h0]
    decide
  · rw [if_neg h0]
    by_cases h7 : (7#32 : BitVec 32).slt w = true
    · rw [if_pos h7]; decide
    · rw [if_neg h7]
      simp only [BitVec.slt, decide_eq_true_eq] at h0 h7
      unfold BitVec.toInt at h0 h7
      split at h0 <;> simp at h0 h7 <;> omega

/-- With every word below 8, the weight and bias block indices (word, 0, 0) lie inside their arrays. -/
theorem ok_of_lt (pf : pre0.Contents (Elt F)) (hpf : ∀ j : S40.Idx, (pf 0 j : BitVec 32).toNat < 8) :
    ok0 (F := F) pf := by
  unfold ok0
  refine ⟨fun i => ?_, fun i => ?_⟩
  · obtain ⟨w, hw, e⟩ : ∃ w : BitVec 32, w.toNat < 8 ∧ cc0_transform_1 k0_off1_inb numel1_S1 pf i = ![w.toNat, 0, 0] :=
      ⟨_, hpf _, rfl⟩
    generalize cc0_transform_1 k0_off1_inb numel1_S1 pf i = ix at e ⊢
    subst e
    refine ⟨fun a => ?_, Or.inr (Or.inr ⟨by decide, rfl, rfl, rfl⟩)⟩
    fin_cases a
    · show (w.toNat + 1) * 1 ≤ 8
      omega
    · show (0 + 1) * 1024 ≤ 1024
      omega
    · show (0 + 1) * 1024 ≤ 1024
      omega
  · obtain ⟨w, hw, e⟩ : ∃ w : BitVec 32, w.toNat < 8 ∧ cc0_transform_2 k0_off1_inb numel1_S1 pf i = ![w.toNat, 0, 0] :=
      ⟨_, hpf _, rfl⟩
    generalize cc0_transform_2 k0_off1_inb numel1_S1 pf i = ix at e ⊢
    subst e
    refine ⟨fun a => ?_, Or.inl rfl⟩
    fin_cases a
    · show (w.toNat + 1) * 1 ≤ 8
      omega
    · show (0 + 1) * 1 ≤ 1
      omega
    · show (0 + 1) * 1024 ≤ 1024
      omega

/-- The table is the elementwise minimum with 7 of the maximum with 0 of some words. -/
theorem tbl_lt (j : S40.Idx) : (tbl m 0 j : BitVec 32).toNat < 8 := by
  show (V m (0 : Dev nD) main_v61 j : BitVec 32).toNat < 8
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  exact clip_lt _

theorem ok : Ok m := ok_of_lt (tbl m) (tbl_lt m)

end Cert.KernelIdeal.OkOfPre

end
-- ==== Proof.PreDecode.lean ====
/- What the precondition says of the ids: each is at least 0 and below 8 as a signed word, hence below 8 as a number. -/
import proofs.«407576_j40785009442943_3_alg».proof.Proof.Gen.Pre_finite_inputs
import proofs.«407576_j40785009442943_3_alg».proof.Proof.Ids
import Idealize.ShloMosaic.Lib.ReduceAll
import Idealize.ShloMosaic.Lib.Pipeline.Value
import Idealize.ShloMosaic.Lib.StableHlo.Predicate

noncomputable section

namespace Cert.KernelIdeal.PreDecode

open Cert.KernelIdeal Cert.KernelIdeal.Gen Cert.KernelIdeal.HostVals Cert.KernelIdeal.Ids
open Idealize.ShloMosaic Idealize.ShloMosaic.ValueIdx

variable {F : FTy → Type} [FloatOps F]
variable (xs : Args F)

/-- A word that is nonnegative as a signed number equals its unsigned value. -/
theorem word_lt_eight (w : BitVec 32) (h0 : IntOp.cmpi .sge w 0#32 = 1#1) (h8 : IntOp.cmpi .slt w 8#32 = 1#1) :
    w.toNat < 8 := by
  unfold IntOp.cmpi at h0 h8
  rw [StableHlo.Predicate.ofBool_eq_one_iff] at h0 h8
  simp only [BitVec.sle, BitVec.slt, decide_eq_true_eq] at h0 h8
  have z : (0#32 : BitVec 32).toInt = 0 := by decide
  have e : (8#32 : BitVec 32).toInt = 8 := by decide
  rw [z] at h0
  rw [e] at h8
  rw [BitVec.toInt_eq_toNat_cond] at h0 h8
  have hw := w.isLt
  split at h0 <;> omega

instance scalarIdxSubsingleton : Subsingleton Cert.Pre_finite_inputs.S_.Idx := ⟨fun a b => funext fun d => d.elim0⟩

theorem word_of_pre (h : Cert.Pre_finite_inputs.fn xs.x0 xs.x1 xs.x2 xs.x3 = fun _ => 1#1) (y : S4x2048x2.Idx) :
    (xs.x1 y).toNat < 8 := by
  have e := congrFun h ValueIdx.ix0
  unfold Cert.Pre_finite_inputs.fn Cert.Pre_finite_inputs.fn_part1 at e
  dsimp only at e
  obtain ⟨e1, hB⟩ := IntOp.andi_eq_one.1 e
  obtain ⟨_, hA⟩ := IntOp.andi_eq_one.1 e1
  have a := Host.reduce_andi_all _ _ _ _ _ hA y
  have b := Host.reduce_andi_all _ _ _ _ _ hB y
  have a' : IntOp.cmpi .sge (xs.x1 y) 0#32 = 1#1 := a
  have b' : IntOp.cmpi .slt (xs.x1 y) 8#32 = 1#1 := b
  exact word_lt_eight _ a' b'

/-- The entry of the [4, 2048, 2] array that flat position t lists. -/
def src (t : Fin 16384) : S4x2048x2.Idx :=
  ix3 (⟨t.val / 4096, by have := t.isLt; omega⟩ : Fin 4) (⟨t.val / 2 % 2048, by omega⟩ : Fin 2048) (⟨t.val % 2, by omega⟩ : Fin 2)

/-- Flattening keeps the row-major position: ((t / 4096) · 2048 + t / 2 % 2048) · 2 + t % 2 = t. -/
theorem idw_eq (t : Fin 16384) : idw xs t = xs.x1 (src t) := by
  unfold idw
  rw [val_main_v1]
  refine shapeCast_apply xs.x1 shapeCasts_S4x2048x2_S16384 (ix1 t) (src t) ?_
  rw [Shape.rowMajor_val_three, Shape.rowMajor_val_one]
  have ht := t.isLt
  show ((t.val / 4096) * 2048 + t.val / 2 % 2048) * 2 + t.val % 2 = t.val
  omega

theorem inRange_of_pre (h : Cert.Pre_finite_inputs.fn xs.x0 xs.x1 xs.x2 xs.x3 = fun _ => 1#1) :
    InRange xs := by
  intro t
  unfold key
  rw [idw_eq]
  exact word_of_pre xs h (src t)

end Cert.KernelIdeal.PreDecode

end
-- ==== Proof.Spec.lean ====
/- The function both programs compute: out[t, o] = Σ_k x[t, k] · W[o, e, k] + B[o, e, 0], with e the expert token t's id names. -/
import Idealize.ShloMosaic.PureOps.Ideal
import Idealize.ShloMosaic.Lib.ValueIdx

noncomputable section

namespace Cert.Moe

open Idealize.ShloMosaic Idealize.ShloMosaic.ValueIdx

abbrev STok : Shape := ⟨2, ![16384, 1024]⟩
abbrev SIds : Shape := ⟨1, ![16384]⟩
abbrev SWts : Shape := ⟨3, ![1024, 8, 1024]⟩
abbrev SBia : Shape := ⟨3, ![1024, 8, 1]⟩

/-- An id word as a position on the expert axis (capped at 7, so that the function is total). -/
def expert (ids : SIds.Idx → BitVec 32) (t : Fin 16384) : Fin 8 :=
  ⟨min (ids (ix1 t)).toNat 7, Nat.lt_succ_of_le (Nat.min_le_right _ _)⟩

theorem expert_val (ids : SIds.Idx → BitVec 32) (t : Fin 16384) (h : (ids (ix1 t)).toNat < 8) :
    (expert ids t).val = (ids (ix1 t)).toNat := by
  show min _ 7 = _
  omega

/-- The result at token t, output feature o. -/
def Yat (x : STok.Idx → EReal) (ids : SIds.Idx → BitVec 32) (W : SWts.Idx → EReal) (B : SBia.Idx → EReal)
    (t : Fin 16384) (o : Fin 1024) : EReal :=
  (∑ k : Fin 1024, x (ix2 t k) * W (ix3 o (expert ids t) k)) + B (ix3 o (expert ids t) (0 : Fin 1))

def Y (x : STok.Idx → EReal) (ids : SIds.Idx → BitVec 32) (W : SWts.Idx → EReal) (B : SBia.Idx → EReal) :
    STok.Idx → EReal :=
  fun i => Yat x ids W B (i 0) (i 1)

theorem Y_apply (x : STok.Idx → EReal) (ids : SIds.Idx → BitVec 32) (W : SWts.Idx → EReal) (B : SBia.Idx → EReal)
    (t : Fin 16384) (o : Fin 1024) : Y x ids W B (ix2 t o) = Yat x ids W B t o := rfl

end Cert.Moe

end
-- ==== Proof.KernelRun.lean ====
/- The idealized kernel ends with the reshape of the common function Y in its result and its arguments unchanged. -/
import proofs.«407576_j40785009442943_3_alg».proof.Proof.Gen.KernelIdeal.Frame
import proofs.«407576_j40785009442943_3_alg».proof.Proof.HostRead
import proofs.«407576_j40785009442943_3_alg».proof.Proof.Region
import proofs.«407576_j40785009442943_3_alg».proof.Proof.Moves
import proofs.«407576_j40785009442943_3_alg».proof.Proof.Tables
import proofs.«407576_j40785009442943_3_alg».proof.Proof.OkOfPre
import proofs.«407576_j40785009442943_3_alg».proof.Proof.PreDecode
import proofs.«407576_j40785009442943_3_alg».proof.Proof.Spec
import proofs.«407576_j40785009442943_3_alg».proof.Defs

set_option maxRecDepth 16384

noncomputable section

namespace Cert.KernelIdeal.KernelRun

open Cert.KernelIdeal Cert.KernelIdeal.Gen Cert.KernelIdeal.HostVals Cert.KernelIdeal.HostRead Cert.KernelIdeal.Region
open Cert.KernelIdeal.Ids Cert.KernelIdeal.Sort Cert.KernelIdeal.Tables
open Idealize.ShloMosaic Idealize.ShloMosaic.TcCoe Idealize.SL.Sem Idealize.ShloMosaic.StableHlo Idealize.ShloMosaic.ValueIdx
open Idealize.ShloMosaic.Pipeline (Dat)

section AnyInstance

variable {F : FTy → Type} [FloatOps F]
variable (m : (ℓ : Loc nD τ sig) → Buf (Elt F) ℓ)

/-- After the product, the result buffer is the row moves' function of the product array and the arguments. -/
theorem tail_eq (hO : Ok m) (c : Dev nD) :
    Pipeline.afterTail pcfgs (fun _ => adm m hO) (dats m hO) 0 (V0 m) [hostOps1] c main_v99
      = tail_main_v99 (outArr m hO c) (args m c) := by
  unfold Pipeline.afterTail
  simp only [hostOps1, List.flatten_cons, List.flatten_nil, List.append_nil]
  after_results_simp

  have h83 : Pipeline.withArrays (Pipeline.pin pcfgs (fun _ => adm m hO) 0).spec c (V0 m c) (fun w => (dats m hO 0 c).arrAt w (Pipeline.pin pcfgs (fun _ => adm m hO) 0).N) (Proc.devRef .tc main_v83) = outArr m hO c :=
    Pipeline.withArrays_arr (Pipeline.pin pcfgs (fun _ => adm m hO) 0).spec (launch0 (F := F)).win.arr_inj c (V0 m c)
      (fun w => (dats m hO 0 c).arrAt w (Pipeline.pin pcfgs (fun _ => adm m hO) 0).N) 3
  have h49 : Pipeline.withArrays (Pipeline.pin pcfgs (fun _ => adm m hO) 0).spec c (V0 m c) (fun w => (dats m hO 0 c).arrAt w (Pipeline.pin pcfgs (fun _ => adm m hO) 0).N) (Proc.devRef .tc main_v49) = val_main_v49 (args m c) :=
    (Pipeline.withArrays_of_ne _ c (V0 m c) _ main_v49 (by exact (by decide : ∀ w, Pipeline.arrRef spec0 w ≠ main_v49))).trans (V_main_v49 m c)
  have h2 : Pipeline.withArrays (Pipeline.pin pcfgs (fun _ => adm m hO) 0).spec c (V0 m c) (fun w => (dats m hO 0 c).arrAt w (Pipeline.pin pcfgs (fun _ => adm m hO) 0).N) (Proc.devRef .tc main_v2) = val_main_v2 (args m c) :=
    (Pipeline.withArrays_of_ne _ c (V0 m c) _ main_v2 (by exact (by decide : ∀ w, Pipeline.arrRef spec0 w ≠ main_v2))).trans (V_main_v2 m c)
  rw [h83, h49, h2]
  rfl

end AnyInstance

section AtIdeal

variable (m : (ℓ : Loc nD τ sig) → Buf (Elt Ideal) ℓ) (ρ : Dev nD → PrngReg)

theorem inRange (h : Cert.Pre_KernelIdeal m) (c : Dev nD) : InRange (args m c) :=
  PreDecode.inRange_of_pre (args m c) (h c)

abbrev Yc (c : Dev nD) : (⟨2, ![16384, 1024]⟩ : Shape).Idx → EReal :=
  Cert.Moe.Y (val_main_v0 (args m c)) (val_main_v1 (args m c)) (args m c).x2 (args m c).x3

/-- Row σ j of the final array is row dst j of the product, which is token σ j's row against its own expert's weights plus bias; σ reaches every token. -/
theorem yfin_eq (hk : ∀ c, InRange (args m c)) (hO : Ok m) (c : Dev nD) :
    Moves.yfin (args m c) (oarr m hO c) = Yc m c := by
  obtain rfl : c = 0 := Subsingleton.elim _ _
  funext i
  obtain ⟨t, o, rfl⟩ : ∃ (t : Fin 16384) (o : Fin 1024), i = ix2 t o := ⟨i 0, i 1, eq_ix2 i⟩
  obtain ⟨j, rfl⟩ := (sg_bijective (args m 0)).2 t

  rw [Moves.yfin_row (args m 0) (hk 0) (oarr m hO 0) j o]

  have hlt : key (args m 0) (sg (args m 0) j) < 8 := hk 0 _
  have hg : (gidw m (⟨(dst (args m 0) (hk 0) j).val / 512, by omega⟩ : Fin 40)).toNat
      = (Cert.Moe.expert (val_main_v1 (args m 0)) (sg (args m 0) j)).val := by
    rw [Cert.Moe.expert_val (val_main_v1 (args m 0)) (sg (args m 0) j) hlt]
    have e : tbl m 0 = V m (0 : Dev nD) main_v61 := rfl
    have hv : gidw m (⟨(dst (args m 0) (hk 0) j).val / 512, by omega⟩ : Fin 40)
        = val_main_v61 (args m 0) (ix1 (⟨(dst (args m 0) (hk 0) j).val / 512, tile_lt _⟩ : Fin 40)) := by
      show tbl m 0 (ix1 _) = _
      rw [e, V_main_v61]
    rw [hv]
    exact gid_dst (args m 0) (hk 0) j
  rw [out_apply m hO 0 (dst (args m 0) (hk 0) j) o _ hg]

  have ex : xpad m 0 = Moves.xpadv (args m 0) := V_main_v77 m 0
  have ew : wmm m 0 = Moves.wv (args m 0) := V_main_v79 m 0
  have eb : bmm m 0 = Moves.bv (args m 0) := V_main_v82 m 0
  rw [ex, ew, eb]
  show _ = Cert.Moe.Yat (val_main_v0 (args m 0)) (val_main_v1 (args m 0)) (args m 0).x2 (args m 0).x3
    (sg (args m 0) j) o
  unfold Cert.Moe.Yat
  refine congrArg₂ (· + ·) (Finset.sum_congr rfl fun k _ => ?_) ?_
  · rw [Moves.v77_row (args m 0) (hk 0) j k, Moves.v79_apply (args m 0) _ k o]
  · rw [Moves.v82_apply (args m 0) _ o]

theorem run (h : Cert.Pre_KernelIdeal m) :
    θ_run defs (onTc (τ := τ) (main (F := Ideal))) ⟨m, fun _ => 0, ρ⟩ fun r => ∀ c : Dev nD,
      r.2.mem ((c.tc : Thread nD τ).loc main_v99) = shapeCast _ (Yc m c) shapeCasts_S16384x1024_S4x2048x2x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hO : Ok m := OkOfPre.ok m
  refine (θ_run defs _ _).mono (fun r hq c => ⟨?_,
      ((hq c).2 main_arg0 (by decide : main_arg0 ∈ Pipeline.restRefs sig spec0)).trans (W_main_arg0 m hO (dats m hO) c),
      ((hq c).2 main_arg1 (by decide : main_arg1 ∈ Pipeline.restRefs sig spec0)).trans (W_main_arg1 m hO (dats m hO) c),
      ((hq c).2 main_arg2 (by decide : main_arg2 ∈ Pipeline.restRefs sig spec0)).trans (W_main_arg2 m hO (dats m hO) c),
      ((hq c).2 main_arg3 (by decide : main_arg3 ∈ Pipeline.restRefs sig spec0)).trans (W_main_arg3 m hO (dats m hO) c)⟩)
    (run_main m ρ hO)

  refine ((hq c).2 main_v99 (by decide : main_v99 ∈ Pipeline.restRefs sig spec0)).trans ?_
  rw [tail_eq m hO c, tail_main_v99]
  exact congrArg (fun y => shapeCast _ y shapeCasts_S16384x1024_S4x2048x2x1024) (yfin_eq m (inRange m h) hO c)

end AtIdeal

end Cert.KernelIdeal.KernelRun

end
-- ==== Proof.RefValue.lean ====
/- The reference at (t, o): eight dense products, and a chain of selects that keeps the one whose expert is token t's id. -/
import proofs.«407576_j40785009442943_3_alg».proof.Proof.Gen.ReferenceIdeal.Read
import proofs.«407576_j40785009442943_3_alg».proof.Proof.Spec

noncomputable section

namespace Cert.ReferenceIdeal.RefValue

open Cert.ReferenceIdeal Cert.ReferenceIdeal.Gen
open Idealize.ShloMosaic Idealize.ShloMosaic.ValueIdx

variable (x0 : Vec Ideal S4x2048x2x1024 .f32) (x1 : Vec Ideal S4x2048x2 .i32) (x2 : Vec Ideal S1024x8x1024 .f32)
  (x3 : Vec Ideal S1024x8x1 .f32)

/-- Expert e's dense product and its "the id is e" mask: one buffer per expert. -/
def dense : Fin 8 → Vec Ideal S16384x1024 .f32
  | ⟨0, _⟩ => Read.val_main_v11 (F := Ideal) x0 x2 x3
  | ⟨1, _⟩ => Read.val_main_v24 (F := Ideal) x0 x2 x3
  | ⟨2, _⟩ => Read.val_main_v37 (F := Ideal) x0 x2 x3
  | ⟨3, _⟩ => Read.val_main_v50 (F := Ideal) x0 x2 x3
  | ⟨4, _⟩ => Read.val_main_v63 (F := Ideal) x0 x2 x3
  | ⟨5, _⟩ => Read.val_main_v76 (F := Ideal) x0 x2 x3
  | ⟨6, _⟩ => Read.val_main_v89 (F := Ideal) x0 x2 x3
  | ⟨7, _⟩ => Read.val_main_v102 (F := Ideal) x0 x2 x3
def mask : Fin 8 → Vec Ideal S16384x1024 .i1
  | ⟨0, _⟩ => Read.val_main_call0_v0 (F := Ideal) x1
  | ⟨1, _⟩ => Read.val_main_call1_v0 (F := Ideal) x1
  | ⟨2, _⟩ => Read.val_main_call2_v0 (F := Ideal) x1
  | ⟨3, _⟩ => Read.val_main_call3_v0 (F := Ideal) x1
  | ⟨4, _⟩ => Read.val_main_call4_v0 (F := Ideal) x1
  | ⟨5, _⟩ => Read.val_main_call5_v0 (F := Ideal) x1
  | ⟨6, _⟩ => Read.val_main_call6_v0 (F := Ideal) x1
  | ⟨7, _⟩ => Read.val_main_call7_v0 (F := Ideal) x1

/-- Row t of the tokens against row o of expert e's weight slice, plus its bias: the slices, reshapes and the
    transpose only re-index, and (o · 1024 + k) / 1024 = o, (o · 1024 + k) % 1024 = k. -/
theorem dense_apply (e : Fin 8) (t : Fin 16384) (o : Fin 1024) :
    dense x0 x2 x3 e (ix2 t o)
      = (∑ k : Fin 1024, Read.val_main_v0 (F := Ideal) x0 (ix2 t k) * x2 (ix3 o e k)) + x3 (ix3 o e (0 : Fin 1)) := by
  have ho := o.isLt
  obtain ⟨n, hn⟩ := e
  interval_cases n <;>
  · simp only [dense, Ideal.addf_def,
      Read.val_main_v11_apply, Read.val_main_v6_apply, Read.val_main_v10_apply, Read.val_main_v9_apply,
      Read.val_main_v8_apply, Read.val_main_v7_apply, Read.val_main_v5_apply, Read.val_main_v4_apply,
      Read.val_main_v3_apply, Read.val_main_v24_apply, Read.val_main_v19_apply, Read.val_main_v23_apply,
      Read.val_main_v22_apply, Read.val_main_v21_apply, Read.val_main_v20_apply, Read.val_main_v18_apply,
      Read.val_main_v17_apply, Read.val_main_v16_apply, Read.val_main_v37_apply, Read.val_main_v32_apply,
      Read.val_main_v36_apply, Read.val_main_v35_apply, Read.val_main_v34_apply, Read.val_main_v33_apply,
      Read.val_main_v31_apply, Read.val_main_v30_apply, Read.val_main_v29_apply, Read.val_main_v50_apply,
      Read.val_main_v45_apply, Read.val_main_v49_apply, Read.val_main_v48_apply, Read.val_main_v47_apply,
      Read.val_main_v46_apply, Read.val_main_v44_apply, Read.val_main_v43_apply, Read.val_main_v42_apply,
      Read.val_main_v63_apply, Read.val_main_v58_apply, Read.val_main_v62_apply, Read.val_main_v61_apply,
      Read.val_main_v60_apply, Read.val_main_v59_apply, Read.val_main_v57_apply, Read.val_main_v56_apply,
      Read.val_main_v55_apply, Read.val_main_v76_apply, Read.val_main_v71_apply, Read.val_main_v75_apply,
      Read.val_main_v74_apply, Read.val_main_v73_apply, Read.val_main_v72_apply, Read.val_main_v70_apply,
      Read.val_main_v69_apply, Read.val_main_v68_apply, Read.val_main_v89_apply, Read.val_main_v84_apply,
      Read.val_main_v88_apply, Read.val_main_v87_apply, Read.val_main_v86_apply, Read.val_main_v85_apply,
      Read.val_main_v83_apply, Read.val_main_v82_apply, Read.val_main_v81_apply, Read.val_main_v102_apply,
      Read.val_main_v97_apply, Read.val_main_v101_apply, Read.val_main_v100_apply, Read.val_main_v99_apply,
      Read.val_main_v98_apply, Read.val_main_v96_apply, Read.val_main_v95_apply, Read.val_main_v94_apply]
    congr 1
    · refine Finset.sum_congr rfl fun k _ => ?_
      have hk := k.isLt
      congr 2
      · funext a
        match a with
        | ⟨0, _⟩ => rfl
        | ⟨1, _⟩ => rfl
      · funext a
        apply Fin.ext
        match a with
        | ⟨0, _⟩ => show (o.val * 1024 + k.val) / 1024 = o.val; omega
        | ⟨1, _⟩ => rfl
        | ⟨2, _⟩ => show (o.val * 1024 + k.val) % 1024 = k.val; omega
    · congr 1
      funext a
      apply Fin.ext
      match a with
      | ⟨0, _⟩ => show o.val / 1 = o.val; omega
      | ⟨1, _⟩ => rfl
      | ⟨2, _⟩ => rfl

/-- The mask compares token t's id with e, whatever the column. -/
theorem mask_apply (e : Fin 8) (t : Fin 16384) (o : Fin 1024) :
    mask x1 e (ix2 t o) = IntOp.cmpi .eq (Read.val_main_v1 (F := Ideal) x1 (ix1 t)) (BitVec.ofNat 32 e.val) := by
  obtain ⟨n, hn⟩ := e
  interval_cases n <;>
  · simp only [mask,
      Read.val_main_call0_v0_apply, Read.val_main_v14_apply, Read.val_main_v13_apply, Read.val_main_v12_apply,
      Read.val_main_c_apply, Read.val_main_call1_v0_apply, Read.val_main_v27_apply, Read.val_main_v26_apply,
      Read.val_main_v25_apply, Read.val_main_c_0_apply, Read.val_main_call2_v0_apply, Read.val_main_v40_apply,
      Read.val_main_v39_apply, Read.val_main_v38_apply, Read.val_main_c_1_apply, Read.val_main_call3_v0_apply,
      Read.val_main_v53_apply, Read.val_main_v52_apply, Read.val_main_v51_apply, Read.val_main_c_2_apply,
      Read.val_main_call4_v0_apply, Read.val_main_v66_apply, Read.val_main_v65_apply, Read.val_main_v64_apply,
      Read.val_main_c_3_apply, Read.val_main_call5_v0_apply, Read.val_main_v79_apply, Read.val_main_v78_apply,
      Read.val_main_v77_apply, Read.val_main_c_4_apply, Read.val_main_call6_v0_apply, Read.val_main_v92_apply,
      Read.val_main_v91_apply, Read.val_main_v90_apply, Read.val_main_c_5_apply, Read.val_main_call7_v0_apply,
      Read.val_main_v105_apply, Read.val_main_v104_apply, Read.val_main_v103_apply, Read.val_main_c_6_apply]
    congr 2
    funext a
    match a with
    | ⟨0, _⟩ => rfl

/-- A chain of selects on "w = e", e = 0 … 7, keeps the entry of the e that w spells. -/
theorem chain_pick {α : Type} (w : BitVec 32) (hw : w.toNat < 8) (M : Fin 8 → BitVec 1) (E : Fin 8 → α) (z : α)
    (hM : ∀ e, M e = IntOp.cmpi .eq w (BitVec.ofNat 32 e.val)) :
    Scalar.select (M 7) (E 7) (Scalar.select (M 6) (E 6) (Scalar.select (M 5) (E 5) (Scalar.select (M 4) (E 4)
      (Scalar.select (M 3) (E 3) (Scalar.select (M 2) (E 2) (Scalar.select (M 1) (E 1) (Scalar.select (M 0) (E 0) z)))))))
      = E ⟨w.toNat, hw⟩ := by
  obtain ⟨n, hn, rfl⟩ : ∃ n : Nat, n < 8 ∧ w = BitVec.ofNat 32 n :=
    ⟨w.toNat, hw, BitVec.eq_of_toNat_eq (by rw [BitVec.toNat_ofNat]; omega)⟩
  simp only [hM]
  interval_cases n <;> rfl

/-- The reference's result is the common function, for ids below 8. -/
theorem ref_eq (hk : ∀ t : Fin 16384, (Read.val_main_v1 (F := Ideal) x1 (ix1 t)).toNat < 8) :
    Read.val_main_v106 (F := Ideal) x0 x1 x2 x3
      = Cert.Moe.Y (Read.val_main_v0 (F := Ideal) x0) (Read.val_main_v1 (F := Ideal) x1) x2 x3 := by
  funext i
  obtain ⟨t, o, rfl⟩ : ∃ (t : Fin 16384) (o : Fin 1024), i = ix2 t o := ⟨i 0, i 1, eq_ix2 i⟩
  rw [Cert.Moe.Y_apply]
  unfold Cert.Moe.Yat
  rw [Read.val_main_v106_apply, Read.val_main_v93_apply, Read.val_main_v80_apply, Read.val_main_v67_apply, Read.val_main_v54_apply, Read.val_main_v41_apply, Read.val_main_v28_apply, Read.val_main_v15_apply]
  have he : Cert.Moe.expert (Read.val_main_v1 (F := Ideal) x1) t = ⟨(Read.val_main_v1 (F := Ideal) x1 (ix1 t)).toNat, hk t⟩ :=
    Fin.ext (Cert.Moe.expert_val (Read.val_main_v1 (F := Ideal) x1) t (hk t))
  rw [he]
  exact (chain_pick _ (hk t) (mask x1 · (ix2 t o)) (dense x0 x2 x3 · (ix2 t o)) _ fun e => mask_apply x1 e t o).trans
    (dense_apply x0 x2 x3 _ t o)

end Cert.ReferenceIdeal.RefValue

end
-- ==== Proof.OkOfPreBits.lean ====
/- Every word of the per-tile expert table is a count clipped into 0 … 7, so the expert-axis block index (word, 0, 0) read from it stays inside the 8 experts. -/
import proofs.«407576_j40785009442943_3_alg».proof.Proof.Gen.Kernel.Frame.Runs
import Idealize.ShloMosaic.Lib.StableHlo.Run
import Idealize.ShloMosaic.Lib.ValueIdx

set_option maxRecDepth 16384

noncomputable section

namespace Cert.Kernel.OkOfPre

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A word clipped into 0 … 7 in signed arithmetic spells a number below 8. -/
theorem clip_lt (w : BitVec 32) : (IntOp.minsi 7#32 (IntOp.maxsi 0#32 w)).toNat < 8 := by
  unfold IntOp.minsi IntOp.maxsi
  have h32 := w.isLt
  by_cases h0 : w.slt 0#32 = true
  · rw [if_pos h0]
    decide
  · rw [if_neg h0]
    by_cases h7 : (7#32 : BitVec 32).slt w = true
    · rw [if_pos h7]; decide
    · rw [if_neg h7]
      simp only [BitVec.slt, decide_eq_true_eq] at h0 h7
      unfold BitVec.toInt at h0 h7
      split at h0 <;> simp at h0 h7 <;> omega

/-- With every word below 8, the weight and bias block indices (word, 0, 0) lie inside their arrays. -/
theorem ok_of_lt (pf : pre0.Contents (Elt F)) (hpf : ∀ j : S40.Idx, (pf 0 j : BitVec 32).toNat < 8) :
    ok0 (F := F) pf := by
  unfold ok0
  refine ⟨fun i => ?_, fun i => ?_⟩
  · obtain ⟨w, hw, e⟩ : ∃ w : BitVec 32, w.toNat < 8 ∧ cc0_transform_1 k0_off1_inb numel1_S1 pf i = ![w.toNat, 0, 0] :=
      ⟨_, hpf _, rfl⟩
    generalize cc0_transform_1 k0_off1_inb numel1_S1 pf i = ix at e ⊢
    subst e
    refine ⟨fun a => ?_, Or.inr (Or.inr ⟨by decide, rfl, rfl, rfl⟩)⟩
    fin_cases a
    · show (w.toNat + 1) * 1 ≤ 8
      omega
    · show (0 + 1) * 1024 ≤ 1024
      omega
    · show (0 + 1) * 1024 ≤ 1024
      omega
  · obtain ⟨w, hw, e⟩ : ∃ w : BitVec 32, w.toNat < 8 ∧ cc0_transform_2 k0_off1_inb numel1_S1 pf i = ![w.toNat, 0, 0] :=
      ⟨_, hpf _, rfl⟩
    generalize cc0_transform_2 k0_off1_inb numel1_S1 pf i = ix at e ⊢
    subst e
    refine ⟨fun a => ?_, Or.inl rfl⟩
    fin_cases a
    · show (w.toNat + 1) * 1 ≤ 8
      omega
    · show (0 + 1) * 1 ≤ 1
      omega
    · show (0 + 1) * 1024 ≤ 1024
      omega

/-- The table is the elementwise minimum with 7 of the maximum with 0 of some words. -/
theorem tbl_lt (j : S40.Idx) : (tbl m 0 j : BitVec 32).toNat < 8 := by
  show (V m (0 : Dev nD) main_v61 j : BitVec 32).toNat < 8
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  exact clip_lt _

theorem ok : Ok m := ok_of_lt (tbl m) (tbl_lt m)

end Cert.Kernel.OkOfPre

end
-- ==== Proof.lean ====
/-
  A mixture-of-experts layer: out[t, o] = Σ_k x[t, k] · W[o, e, k] + B[o, e, 0], with e the expert token t's id names.
  The reference selects it among eight dense products. The kernel sorts the tokens by expert, pads each expert's run
  to whole 512-row tiles, multiplies each tile by its own expert's matrix and puts the rows back. Over the extended
  reals both are that function, provided every id is one of the eight experts, which the precondition says.
-/
import proofs.«407576_j40785009442943_3_alg».proof.Defs
import proofs.«407576_j40785009442943_3_alg».proof.Proof.Gen.Kernel
import proofs.«407576_j40785009442943_3_alg».proof.Proof.Gen.Kernel.Skeleton
import proofs.«407576_j40785009442943_3_alg».proof.Proof.Gen.Kernel.Launch
import proofs.«407576_j40785009442943_3_alg».proof.Proof.Gen.Kernel.Points
import proofs.«407576_j40785009442943_3_alg».proof.Proof.Gen.Kernel.Frame
import proofs.«407576_j40785009442943_3_alg».proof.Proof.Gen.KernelIdeal
import proofs.«407576_j40785009442943_3_alg».proof.Proof.Gen.KernelIdeal.Skeleton
import proofs.«407576_j40785009442943_3_alg».proof.Proof.Gen.KernelIdeal.Launch
import proofs.«407576_j40785009442943_3_alg».proof.Proof.Gen.KernelIdeal.Points
import proofs.«407576_j40785009442943_3_alg».proof.Proof.Gen.KernelIdeal.Frame
import proofs.«407576_j40785009442943_3_alg».proof.Proof.Gen.ReferenceIdeal
import proofs.«407576_j40785009442943_3_alg».proof.Proof.Gen.Pre_finite_inputs
import proofs.«407576_j40785009442943_3_alg».proof.Proof.Gen.ReferenceIdeal.Run
import proofs.«407576_j40785009442943_3_alg».proof.Proof.Gen.ReferenceIdeal.Read
import proofs.«407576_j40785009442943_3_alg».proof.Proof.KernelRun
import proofs.«407576_j40785009442943_3_alg».proof.Proof.RefValue
import proofs.«407576_j40785009442943_3_alg».proof.Proof.OkOfPre
import proofs.«407576_j40785009442943_3_alg».proof.Proof.OkOfPreBits
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ (Cert.Kernel.OkOfPre.ok m)

theorem frame_ki : Cert.frame_KernelIdeal := fun m ρ _ => Cert.KernelIdeal.Gen.frame m ρ (Cert.KernelIdeal.OkOfPre.ok m)

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the reshape of the common function of arguments that agree. -/
theorem algebraic : Cert.algebraic_KernelIdeal_ReferenceIdeal := by
  intro m ρ m' ρ' hpre hagree
  refine ⟨_, Cert.KernelIdeal.KernelRun.run m ρ hpre, ?_⟩
  refine (θ_run Cert.ReferenceIdeal.defs _ _).mono (fun _ h c => ⟨(h c).1.trans ?_, (h c).2⟩)
    (Cert.ReferenceIdeal.Value.run (F := Ideal) m' ρ')

  have hk := Cert.KernelIdeal.KernelRun.inRange m hpre c
  rw [Cert.ReferenceIdeal.Read.val_main_v107_eq, (hagree c).1, (hagree c).2.1, (hagree c).2.2.1, (hagree c).2.2.2]
  unfold Cert.ReferenceIdeal.Read.val_main_v107
  rw [Cert.ReferenceIdeal.RefValue.ref_eq _ _ _ _ (fun t => hk t)]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
